-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000 : Shape := ⟨1, ![50000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1 .f32) (main_v33 : IVec S_ 1) : IVec S_ 1 :=
  let main_v34 : FVec F S1 .f32 := Host.absf main_arg10
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg7 : FVec F S64x64 .f32) (main_arg8 : FVec F S64 .f32) (main_arg9 : FVec F S64x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg9
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg10 main_v33

def fn {F : FTy → Type} [FloatOps F] (main_arg0 : IVec S800000 32) (main_arg1 : IVec S800000 32) (main_arg2 : IVec S50000 32) (main_arg3 : FVec F S1x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S64 .f32 := Host.absf main_arg4
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_v13 main_v16
-- ==== Kernel.lean ====
abbrev S800000 : Shape := ⟨1, ![800000]⟩
abbrev S50000 : Shape := ⟨1, ![50000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S50000x1 : Shape := ⟨2, ![50000, 1]⟩
abbrev S50000x2 : Shape := ⟨2, ![50000, 2]⟩
abbrev S50000x64 : Shape := ⟨2, ![50000, 64]⟩
abbrev S5000x1 : Shape := ⟨2, ![5000, 1]⟩
abbrev S5000x2 : Shape := ⟨2, ![5000, 2]⟩
abbrev S5000x64 : Shape := ⟨2, ![5000, 64]⟩
abbrev S800000x64 : Shape := ⟨2, ![800000, 64]⟩
abbrev S1x1 : Shape := ⟨2, ![1, 1]⟩

abbrev nBuf : Space → Nat
  | .hbm => 110
  | .vmem => 29
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000, .i32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x1, .f32⟩
  | .hbm, ⟨35, _⟩ => ⟨S50000x1, .f32⟩
  | .hbm, ⟨36, _⟩ => ⟨S50000x1, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x1, .bf16⟩
  | .hbm, ⟨46, _⟩ => ⟨S800000x1, .f32⟩
  | .hbm, ⟨47, _⟩ => ⟨S_, .f32⟩
  | .hbm, ⟨48, _⟩ => ⟨S50000x1, .f32⟩
  | .hbm, ⟨49, _⟩ => ⟨S800000x1, .i32⟩
  | .hbm, ⟨50, _⟩ => ⟨S50000x1, .f32⟩
  | .hbm, ⟨51, _⟩ => ⟨S50000x1, .f32⟩
  | .hbm, ⟨52, _⟩ => ⟨S50000x1, .f32⟩
  | .hbm, ⟨53, _⟩ => ⟨S50000x2, .f32⟩
  | .hbm, ⟨54, _⟩ => ⟨S1x64, .f32⟩
  | .hbm, ⟨55, _⟩ => ⟨S50000x64, .bf16⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .bf16⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x1, .f32⟩
  | .hbm, ⟨71, _⟩ => ⟨S50000x1, .f32⟩
  | .hbm, ⟨72, _⟩ => ⟨S50000x2, .f32⟩
  | .hbm, ⟨73, _⟩ => ⟨S1x64, .f32⟩
  | .hbm, ⟨74, _⟩ => ⟨S50000x64, .bf16⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x64, .bf16⟩
  | .hbm, ⟨84, _⟩ => ⟨S800000x64, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S64, .i32⟩
  | .hbm, ⟨90, _⟩ => ⟨S1x64, .i32⟩
  | .hbm, ⟨91, _⟩ => ⟨S50000x1, .i32⟩
  | .hbm, ⟨92, _⟩ => ⟨S50000x64, .i32⟩
  | .hbm, ⟨93, _⟩ => ⟨S50000x64, .i32⟩
  | .hbm, ⟨94, _⟩ => ⟨S50000x64, .i1⟩
  | .hbm, ⟨95, _⟩ => ⟨S50000x64, .bf16⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S64, .f32⟩
  | .hbm, ⟨100, _⟩ => ⟨S50000x1, .i32⟩
  | .hbm, ⟨101, _⟩ => ⟨S64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S50000x1, .f32⟩
  | .hbm, ⟨106, _⟩ => ⟨S1x64, .f32⟩
  | .hbm, ⟨107, _⟩ => ⟨S64x1, .f32⟩
  | .hbm, ⟨108, _⟩ => ⟨S1x1, .f32⟩
  | .hbm, ⟨109, _⟩ => ⟨S64x1, .f32⟩
  | .local _ .vmem, ⟨0, _⟩ => ⟨S5000x1, .f32⟩
  | .local _ .vmem, ⟨1, _⟩ => ⟨S5000x1, .f32⟩
  | .local _ .vmem, ⟨2, _⟩ => ⟨S5000x2, .f32⟩
  | .local _ .vmem, ⟨3, _⟩ => ⟨S5000x2, .f32⟩
  | .local _ .vmem, ⟨4, _⟩ => ⟨S1x64, .f32⟩
  | .local _ .vmem, ⟨5, _⟩ => ⟨S1x64, .f32⟩
  | .local _ .vmem, ⟨6, _⟩ => ⟨S5000x64, .bf16⟩
  | .local _ .vmem, ⟨7, _⟩ => ⟨S5000x64, .bf16⟩
  | .local _ .vmem, ⟨8, _⟩ => ⟨S5000x64, .f32⟩
  | .local _ .vmem, ⟨9, _⟩ => ⟨S5000x64, .f32⟩
  | .local _ .vmem, ⟨10, _⟩ => ⟨S5000x2, .f32⟩
  | .local _ .vmem, ⟨11, _⟩ => ⟨S5000x2, .f32⟩
  | .local _ .vmem, ⟨12, _⟩ => ⟨S64x64, .f32⟩
  | .local _ .vmem, ⟨13, _⟩ => ⟨S1x64, .f32⟩
  | .local _ .vmem, ⟨14, _⟩ => ⟨S5000x64, .bf16⟩
  | .local _ .vmem, ⟨15, _⟩ => ⟨S5000x64, .bf16⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x64, .f32⟩
  | .local _ .vmem, ⟨21, _⟩ => ⟨S1x64, .f32⟩
  | .local _ .vmem, ⟨22, _⟩ => ⟨S5000x64, .bf16⟩
  | .local _ .vmem, ⟨23, _⟩ => ⟨S5000x64, .bf16⟩
  | .local _ .vmem, ⟨24, _⟩ => ⟨S64x1, .f32⟩
  | .local _ .vmem, ⟨25, _⟩ => ⟨S64x1, .f32⟩
  | .local _ .vmem, ⟨26, _⟩ => ⟨S1x1, .f32⟩
  | .local _ .vmem, ⟨27, _⟩ => ⟨S64x1, .f32⟩
  | .local _ .vmem, ⟨28, _⟩ => ⟨S64x64, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem6_0 : DmaSem sig := 25
abbrev cc2_sem7_0 : DmaSem sig := 26
abbrev cc2_sem8_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_16 : BitVec 32 := 0#32
  let v30 : BitVec 1 := Scalar.cmpi .ne v29 c0_i32_16
  v30

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  bcast_S_S50000x1 : S_.BroadcastsInDim S50000x1 (![] : Fin 0 → Fin S50000x1.rank)
  concatenates_S50000x1_S50000x1_S50000x2_d1 : Shape.Concatenates [S50000x1, S50000x1] S50000x2 1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x1_S50000x64_0_1 : S50000x1.BroadcastsInDim S50000x64 (![0, 1] : Fin 2 → Fin S50000x64.rank)
  bcast_S_S64 : S_.BroadcastsInDim S64 (![] : Fin 0 → Fin S64.rank)
  shapeCasts_S64_S64x1 : S64.ShapeCasts S64x1
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S50000_S800000x1_S800000_n_0_0_1_wf : ScatterDims.WF S50000 S800000x1 S800000 [] [0] [0] 1
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S5000x1_S1x64_S5000x64_1_0_0_1_n_n_wf : DotDims.WF S5000x1 S1x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S64_S50000x1_S50000_n_0_0_1_wf : ScatterDims.WF S64 S50000x1 S50000 [] [0] [0] 1
  dot_S5000x64_S5000x64_S64x64_0_0_1_1_n_n_wf : DotDims.WF S5000x64 S5000x64 S64x64 [0] [0] [1] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S50000x2.size a
  hwx0_1 : ∀ i : grid0.Coords, EltTy.bits .f32 = 32 ∨ (Rect.block (s := S50000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .bf16 = 32 ∨ (Rect.block (s := S50000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S50000x2.size a
  hwx1_1 : ∀ i : grid1.Coords, EltTy.bits .f32 = 32 ∨ (Rect.block (s := S50000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .bf16 = 32 ∨ (Rect.block (s := S50000x64) S5000x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x1.size a ≤ S64x1.size a
  hwx2_8 : ∀ i : grid2.Coords, EltTy.bits .f32 = 32 ∨ (Rect.block (s := S64x1) S64x1.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x1_S1x64_S5000x64_1_0_0_1_n_n : DotDims S5000x1 S1x64 S5000x64 where
  lhsContracting := [1]
  rhsContracting := [0]
  lhsNonContracting := [0]
  rhsNonContracting := [1]
  lhsBatch := []
  rhsBatch := []
  wf := dot_S5000x1_S1x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v29) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S5000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v77) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S64x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v78) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v79) S64x1.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S800000 : Shape := ⟨1, ![800000]⟩
abbrev S50000 : Shape := ⟨1, ![50000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S800000, .i32⟩
  | 1 => ⟨S800000, .i32⟩
  | 2 => ⟨S50000, .i32⟩
  | 3 => ⟨S1x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S50000x1, .f32⟩
  | 34 => ⟨S50000x1, .f32⟩
  | 35 => ⟨S50000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x1, .f32⟩
  | 45 => ⟨S_, .f32⟩
  | 46 => ⟨S50000x1, .f32⟩
  | 47 => ⟨S800000x1, .i32⟩
  | 48 => ⟨S50000x1, .f32⟩
  | 49 => ⟨S50000x1, .f32⟩
  | 50 => ⟨S50000x1, .f32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S50000x1, .f32⟩
  | 59 => ⟨S50000x64, .f32⟩
  | 60 => ⟨S50000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S50000x1, .f32⟩
  | 75 => ⟨S50000x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x1, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S50000x1, .f32⟩
  | 101 => ⟨S50000x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S_, .f32⟩
  | 111 => ⟨S50000, .f32⟩
  | 112 => ⟨S_, .f32⟩
  | 113 => ⟨S64, .f32⟩
  | 114 => ⟨S50000x1, .i32⟩
  | 115 => ⟨S64, .f32⟩
  | 116 => ⟨S_, .f32⟩
  | 117 => ⟨S64x64, .f32⟩
  | 118 => ⟨S50000x1, .i32⟩
  | 119 => ⟨S64x64, .f32⟩
  | 120 => ⟨S_, .f32⟩
  | 121 => ⟨S64, .f32⟩
  | 122 => ⟨S64, .f32⟩
  | 123 => ⟨S64x1, .f32⟩
  | 124 => ⟨S64x64, .f32⟩
  | 125 => ⟨S64x64, .f32⟩
  | 126 => ⟨S64x1, .f32⟩
  | 127 => ⟨S1x1, .f32⟩
  | _ => ⟨S800000, .i32⟩

abbrev hbmTy0_1 (i : Nat) : BufTy := match i % 128 with
  | 0 => ⟨S64x1, .f32⟩
  | 1 => ⟨S64x1, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call0_cst : Ref sig .tc := ⟨.hbm, 55, rfl⟩
abbrev main_call0_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call2_cst : Ref sig .tc := ⟨.hbm, 107, rfl⟩
abbrev main_call2_v0 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S800000x1_S800000_n_0_0_1_wf : ScatterDims.WF S50000 S800000x1 S800000 [] [0] [0] 1
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S50000x1_S1x64_S50000x64_1_0_0_1_n_n_wf : DotDims.WF S50000x1 S1x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x1_S64x1_1_0_0_1_n_n_wf : DotDims.WF S64x64 S64x1 S64x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KB.Reg0.lean ====
import proofs.«408972_j53575422050753_2_alg».proof.Proof.Gen.Kernel.Launch
import proofs.«408972_j53575422050753_2_alg».proof.Proof.Gen.Kernel.Skeleton
import proofs.«408972_j53575422050753_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x1 := Rect.unit (s := S5000x1) ![0, 0] S5000x1.size inb_S5000x1_S5000x1_0_0
abbrev r0_1 : Rect S5000x2 := Rect.unit (s := S5000x2) ![0, 0] S5000x2.size inb_S5000x2_S5000x2_0_0
abbrev r0_2 : Rect S1x64 := Rect.unit (s := S1x64) ![0, 0] S1x64.size inb_S1x64_S1x64_0_0
abbrev r0_3 : Rect S1x64 := Rect.unit (s := S1x64) ![0, 0] S1x64.size inb_S1x64_S1x64_0_0
abbrev r0_4 : Rect S5000x64 := Rect.unit (s := S5000x64) ![0, 0] S5000x64.size inb_S5000x64_S5000x64_0_0

-- What the body leaves in the output tile: its one whole-tile store.
def out0_4 (x0 : Vec F S5000x1 .f32) (x1 : Vec F S5000x2 .f32) (x2 : Vec F S1x64 .f32) (x3 : Vec F S1x64 .f32) : Vec F S5000x64 .bf16 :=
  View.canon [⟨r0_4, k0_pay1 (View.ld x0 r0_0) (View.ld x1 r0_1) (View.ld x2 r0_2) (View.ld x3 r0_3)⟩]

theorem cover0_4 (p0 : Vec F S5000x64 .bf16) (y : S5000x64.Idx) :
    ∃ pc ∈ ([⟨r0_4, p0⟩] : List (View.Piece (Elt F) S5000x64 .bf16)), y ∈ pc.1.set :=
  View.cover_of_tiled [⟨r0_4, p0⟩] S5000x64.size (by rfl) y

set_option maxHeartbeats 4000000 in
-- The body on whole tiles, the inputs at known contents and the output at anything: the inputs stay, the output ends at `out0_4` of them.
theorem sound_kernel0 (c : Dev nD) (E : Set ℕ) (i : grid0.Coords) (arg1 : Memref sig .tc .vmem S5000x1 .f32) (harg1 : arg1.IsWhole) (arg2 : Memref sig .tc .vmem S5000x2 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .bf16) (harg5 : arg5.IsWhole)
    (x0 : Vec F S5000x1 .f32) (x1 : Vec F S5000x2 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dense_relu_kernel i arg1 harg1 arg2 harg2 arg3 harg3 arg4 harg4 arg5 harg5) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = out0_4 (iblk0 V c 0 t) (iblk0 V c 1 t) (iblk0 V c 2 t) (iblk0 V c 3 t) := by dsimp only [dat0]

-- An input window's tile holds its block at every point.
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

-- The body at any point: the input tiles hold their blocks, so the body's triple applies; the invariant and the dues pass through.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  iframe H0 H1 H2 H3
  isplitl [H4]; · iexists _; iexact H4
  iintro ⟨H0, H1, H2, H3, H4⟩
  iframe

theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.KB.Reg1.lean ====
import proofs.«408972_j53575422050753_2_alg».proof.Proof.Gen.Kernel.Launch
import proofs.«408972_j53575422050753_2_alg».proof.Proof.Gen.Kernel.Skeleton
import proofs.«408972_j53575422050753_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x2 := Rect.unit (s := S5000x2) ![0, 0] S5000x2.size inb_S5000x2_S5000x2_0_0
abbrev r1_2 : Rect S64x64 := Rect.unit (s := S64x64) ![0, 0] S64x64.size inb_S64x64_S64x64_0_0
abbrev r1_3 : Rect S1x64 := Rect.unit (s := S1x64) ![0, 0] S1x64.size inb_S1x64_S1x64_0_0
abbrev r1_4 : Rect S5000x64 := Rect.unit (s := S5000x64) ![0, 0] S5000x64.size inb_S5000x64_S5000x64_0_0

-- What the body leaves in the output tile: its one whole-tile store.
def out1_4 (x0 : Vec F S5000x64 .f32) (x1 : Vec F S5000x2 .f32) (x2 : Vec F S64x64 .f32) (x3 : Vec F S1x64 .f32) : Vec F S5000x64 .bf16 :=
  View.canon [⟨r1_4, k1_pay1 (View.ld x0 r1_0) (View.ld x1 r1_1) (View.ld x2 r1_2) (View.ld x3 r1_3)⟩]

theorem cover1_4 (p0 : Vec F S5000x64 .bf16) (y : S5000x64.Idx) :
    ∃ pc ∈ ([⟨r1_4, p0⟩] : List (View.Piece (Elt F) S5000x64 .bf16)), y ∈ pc.1.set :=
  View.cover_of_tiled [⟨r1_4, p0⟩] S5000x64.size (by rfl) y

set_option maxHeartbeats 4000000 in
-- The body on whole tiles, the inputs at known contents and the output at anything: the inputs stay, the output ends at `out1_4` of them.
theorem sound_kernel1 (c : Dev nD) (E : Set ℕ) (i : grid1.Coords) (arg1 : Memref sig .tc .vmem S5000x64 .f32) (harg1 : arg1.IsWhole) (arg2 : Memref sig .tc .vmem S5000x2 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .bf16) (harg5 : arg5.IsWhole)
    (x0 : Vec F S5000x64 .f32) (x1 : Vec F S5000x2 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__dense_relu_kernel i arg1 harg1 arg2 harg2 arg3 harg3 arg4 harg4 arg5 harg5) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = out1_4 (iblk1 V c 0 t) (iblk1 V c 1 t) (iblk1 V c 2 t) (iblk1 V c 3 t) := by dsimp only [dat1]

-- An input window's tile holds its block at every point.
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

-- The body at any point: the input tiles hold their blocks, so the body's triple applies; the invariant and the dues pass through.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KB.Reg2Runs.lean ====
import proofs.«408972_j53575422050753_2_alg».proof.Proof.Gen.Kernel.Launch
import proofs.«408972_j53575422050753_2_alg».proof.Proof.Gen.Kernel.Skeleton
import proofs.«408972_j53575422050753_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Region2

abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

-- The body's first conditional holds at the first grid point only, its second at the last only.
theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 9 :=
  (by decide +kernel : ∀ t : Fin grid2.N, cond2_1 (grid2.coords t) ↔ t.val = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem idleAt2_8 : ∀ t : Fin cfg2.N, ¬cond2_1 (grid2.coords t) → cfg2.idle 8 (grid2.coords t) = true ∧ (cfg2.win 8).flush t = false := by decide +kernel
theorem liveAt2_8 : ∀ t : Fin cfg2.N, cond2_1 (grid2.coords t) → cfg2.idle 8 (grid2.coords t) = false := by decide +kernel

-- The ten whole tiles the body is called on.
structure Tiles2 where
  a1 : Memref sig .tc .vmem S5000x64 .f32
  h1 : a1.IsWhole
  a2 : Memref sig .tc .vmem S5000x1 .f32
  h2 : a2.IsWhole
  a3 : Memref sig .tc .vmem S64x64 .f32
  h3 : a3.IsWhole
  a4 : Memref sig .tc .vmem S1x64 .f32
  h4 : a4.IsWhole
  a5 : Memref sig .tc .vmem S5000x64 .bf16
  h5 : a5.IsWhole
  a6 : Memref sig .tc .vmem S64x1 .f32
  h6 : a6.IsWhole
  a7 : Memref sig .tc .vmem S64x1 .f32
  h7 : a7.IsWhole
  a8 : Memref sig .tc .vmem S1x1 .f32
  h8 : a8.IsWhole
  a9 : Memref sig .tc .vmem S64x1 .f32
  h9 : a9.IsWhole
  a10 : Memref sig .tc .vmem S64x64 .f32
  h10 : a10.IsWhole

abbrev tiles2 (t : Fin cfg2.N) : Tiles2 := ⟨win2_0.stage (cfg2.slots t 0), hstage2_0 ((cfg2.slots t 0).cast nbuf2_0), win2_1.stage (cfg2.slots t 1), hstage2_1 ((cfg2.slots t 1).cast nbuf2_1), win2_2.stage (cfg2.slots t 2), hstage2_2 ((cfg2.slots t 2).cast nbuf2_2), win2_3.stage (cfg2.slots t 3), hstage2_3 ((cfg2.slots t 3).cast nbuf2_3), win2_4.stage (cfg2.slots t 4), hstage2_4 ((cfg2.slots t 4).cast nbuf2_4), win2_5.stage (cfg2.slots t 5), hstage2_5 ((cfg2.slots t 5).cast nbuf2_5), win2_6.stage (cfg2.slots t 6), hstage2_6 ((cfg2.slots t 6).cast nbuf2_6), win2_7.stage (cfg2.slots t 7), hstage2_7 ((cfg2.slots t 7).cast nbuf2_7), win2_8.stage (cfg2.slots t 8), hstage2_8 ((cfg2.slots t 8).cast nbuf2_8), Memref.whole cc2_scratch0, Memref.isWhole_whole _⟩

-- A whole tile owned at contents `X` is its points-to at the raw contents that read `X`.
theorem owns_unread {s : Shape} {e : EltTy} (c : Dev nD) (a : Memref sig .tc .vmem s e) (h : a.IsWhole) (X : Vec F s e) :
    (owns (c : Thread nD τ) a fullShare X : sProp 𝕄) = (a.view.loc (c : Thread nD τ) ↦[a.view.set]{fullShare} h.unread X) := by
  have h₁ : (owns (c : Thread nD τ) a fullShare X : sProp 𝕄) ⊢ (a.view.loc (c : Thread nD τ) ↦[a.view.set]{fullShare} h.unread X) := by
    unfold owns; iintro ⟨%f, %hf, H⟩
    obtain rfl := h.eq_unread hf
    iexact H
  have h₂ : (a.view.loc (c : Thread nD τ) ↦[a.view.set]{fullShare} h.unread X : sProp 𝕄) ⊢ owns (c : Thread nD τ) a fullShare X := by
    unfold owns; iintro H
    iexists _; isplitr; · ipureintro; exact h.read_unread X
    iexact H
  exact BI.equiv_iff.mp ⟨h₁, h₂⟩

abbrev scM2_0 : Memref sig .tc .vmem S64x64 .f32 := Memref.whole cc2_scratch0

abbrev Rest2 (c : Dev nD) : sProp 𝕄 :=
  Pipeline.scopedRestBut (Ix := Unit) (Name := ℕ) (U := UR sig nD τ) (Lvl := ℕ) (Val := Elt F) spec2 c [cc2_scratch0]

-- The launch's plain invariant with the accumulator split off from the other buffers.
theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA
  rw [Pipeline.scopedRest_split_of_list spec2 c [cc2_scratch0] (by decide) (by decide)]
  simp only [scM2_0, owns_whole]; try rfl

end Cert.Kernel.Fr

end
-- ==== Proof.KB.Reg2Run.lean ====
import proofs.«408972_j53575422050753_2_alg».proof.Proof.KB.Reg2Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid2.Coords) (T : Tiles2) (x0 : Vec F S5000x64 .f32) (x1 : Vec F S5000x1 .f32) (x2 : Vec F S64x64 .f32) (x3 : Vec F S1x64 .f32) (x4 : Vec F S5000x64 .bf16) (x5 : Vec F S64x1 .f32) (x6 : Vec F S64x1 .f32) (x7 : Vec F S1x1 .f32)

set_option maxHeartbeats 4000000 in
-- The body at the first point: the accumulator, found at anything, is left with the listed pieces written; the result tile is untouched.
noncomputable def kernelRun2_A (hc0 : cond2_0 i) (hc1 : ¬cond2_1 i) :
    Σ' (L8 : List (View.Piece (Elt F) S64x1 .f32)), { LS0 : List (View.Piece (Elt F) S64x64 .f32) //
      ∀ (xi8 : Vec F S64x1 .f32) (E : Set ℕ) (K : PUnit → sProp 𝕄),
        iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ owns (c : Thread nD τ) T.a9 fullShare xi8 ∗ (∃ d, owns (c : Thread nD τ) T.a10 fullShare d)
            ∗ (iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ owns (c : Thread nD τ) T.a9 fullShare xi8 ∗ (∃ f, T.a10.view.loc (c : Thread nD τ) ↦[T.a10.view.set]{fullShare} T.a10.view.writes (Elt F) f LS0)) -∗ K ⟨⟩))
          ⊢ wp frame (wpE (defs₀ (F := F)) Variants.none c none) E (cc2__final_kernel i T.a1 T.h1 T.a2 T.h2 T.a3 T.h3 T.a4 T.h4 T.a5 T.h5 T.a6 T.h6 T.a7 T.h7 T.a8 T.h8 T.a9 T.h9 T.a10 T.h10) K } := by
  refine ⟨[], ?_, fun xi8 E K => ?run⟩
  case run =>
    simp only [cc2__final_kernel_eq_skeleton]; unfold cc2__final_kernel_skel
    rw [owns_unread c T.a1 T.h1, owns_unread c T.a2 T.h2, owns_unread c T.a3 T.h3, owns_unread c T.a4 T.h4, owns_unread c T.a5 T.h5, owns_unread c T.a6 T.h6, owns_unread c T.a7 T.h7, owns_unread c T.a8 T.h8, owns_unread c T.a9 T.h9]
    unfold owns
    iintro ⟨H0, H1, H2, H3, H4, H5, H6, H7, H8, ⟨%ds0, %fs0, -, HS0⟩, Hk⟩
    sl_exec (disch := first | exact hc0 | exact hc1)
    sl_step
    iapply Hk
    iframe H0 H1 H2 H3 H4 H5 H6 H7 H8
    iexists _; iexact HS0

variable (xs0 : Vec F S64x64 .f32)

set_option maxHeartbeats 4000000 in
-- The body at a middle point: the accumulator, found at `xs0`, is left with the listed pieces written; the result tile is untouched.
noncomputable def kernelRun2_B (hc0 : ¬cond2_0 i) (hc1 : ¬cond2_1 i) :
    Σ' (L8 : List (View.Piece (Elt F) S64x1 .f32)), { LS0 : List (View.Piece (Elt F) S64x64 .f32) //
      ∀ (xi8 : Vec F S64x1 .f32) (E : Set ℕ) (K : PUnit → sProp 𝕄),
        iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ owns (c : Thread nD τ) T.a9 fullShare xi8 ∗ owns (c : Thread nD τ) T.a10 fullShare xs0
            ∗ (iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ owns (c : Thread nD τ) T.a9 fullShare xi8 ∗ (∃ f, T.a10.view.loc (c : Thread nD τ) ↦[T.a10.view.set]{fullShare} T.a10.view.writes (Elt F) f LS0)) -∗ K ⟨⟩))
          ⊢ wp frame (wpE (defs₀ (F := F)) Variants.none c none) E (cc2__final_kernel i T.a1 T.h1 T.a2 T.h2 T.a3 T.h3 T.a4 T.h4 T.a5 T.h5 T.a6 T.h6 T.a7 T.h7 T.a8 T.h8 T.a9 T.h9 T.a10 T.h10) K } := by
  refine ⟨[], ?_, fun xi8 E K => ?run⟩
  case run =>
    simp only [cc2__final_kernel_eq_skeleton]; unfold cc2__final_kernel_skel
    rw [owns_unread c T.a1 T.h1, owns_unread c T.a2 T.h2, owns_unread c T.a3 T.h3, owns_unread c T.a4 T.h4, owns_unread c T.a5 T.h5, owns_unread c T.a6 T.h6, owns_unread c T.a7 T.h7, owns_unread c T.a8 T.h8, owns_unread c T.a9 T.h9, owns_unread c T.a10 T.h10]
    iintro ⟨H0, H1, H2, H3, H4, H5, H6, H7, H8, HS0, Hk⟩
    sl_exec (disch := first | exact hc0 | exact hc1)
    sl_step
    iapply Hk
    iframe H0 H1 H2 H3 H4 H5 H6 H7 H8
    iexists _; iexact HS0

set_option maxHeartbeats 4000000 in
-- The body at the last point: pieces are written into the result tile, found at anything, and into the accumulator, found at `xs0`.
noncomputable def kernelRun2_C (hc0 : ¬cond2_0 i) (hc1 : cond2_1 i) :
    Σ' (L8 : List (View.Piece (Elt F) S64x1 .f32)), { LS0 : List (View.Piece (Elt F) S64x64 .f32) //
      ∀ (E : Set ℕ) (K : PUnit → sProp 𝕄),
        iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ (∃ d, owns (c : Thread nD τ) T.a9 fullShare d) ∗ owns (c : Thread nD τ) T.a10 fullShare xs0
            ∗ (iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ (∃ f, T.a9.view.loc (c : Thread nD τ) ↦[T.a9.view.set]{fullShare} T.a9.view.writes (Elt F) f L8) ∗ (∃ f, T.a10.view.loc (c : Thread nD τ) ↦[T.a10.view.set]{fullShare} T.a10.view.writes (Elt F) f LS0)) -∗ K ⟨⟩))
          ⊢ wp frame (wpE (defs₀ (F := F)) Variants.none c none) E (cc2__final_kernel i T.a1 T.h1 T.a2 T.h2 T.a3 T.h3 T.a4 T.h4 T.a5 T.h5 T.a6 T.h6 T.a7 T.h7 T.a8 T.h8 T.a9 T.h9 T.a10 T.h10) K } := by
  refine ⟨?_, ?_, fun E K => ?run⟩
  case run =>
    simp only [cc2__final_kernel_eq_skeleton]; unfold cc2__final_kernel_skel
    rw [owns_unread c T.a1 T.h1, owns_unread c T.a2 T.h2, owns_unread c T.a3 T.h3, owns_unread c T.a4 T.h4, owns_unread c T.a5 T.h5, owns_unread c T.a6 T.h6, owns_unread c T.a7 T.h7, owns_unread c T.a8 T.h8, owns_unread c T.a10 T.h10]
    unfold owns
    iintro ⟨H0, H1, H2, H3, H4, H5, H6, H7, ⟨%d8, %f8, -, H8⟩, HS0, Hk⟩
    sl_exec (disch := first | exact hc0 | exact hc1)
    sl_step
    iapply Hk
    iframe H0 H1 H2 H3 H4 H5 H6 H7
    isplitl [H8]; · iexists _; iexact H8
    iexists _; iexact HS0

end Cert.Kernel.Fr

end
-- ==== Proof.KB.Reg2.lean ====
import proofs.«408972_j53575422050753_2_alg».proof.Proof.KB.Reg2Run
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section Pieces
variable (c : Dev nD) (i : grid2.Coords) (T : Tiles2) (x0 : Vec F S5000x64 .f32) (x1 : Vec F S5000x1 .f32) (x2 : Vec F S64x64 .f32) (x3 : Vec F S1x64 .f32) (x4 : Vec F S5000x64 .bf16) (x5 : Vec F S64x1 .f32) (x6 : Vec F S64x1 .f32) (x7 : Vec F S1x1 .f32)

section A
variable (hc0 : cond2_0 i) (hc1 : ¬cond2_1 i)
theorem scover2_A (y : S64x64.Idx) : ∃ pc ∈ (kernelRun2_A c i T x0 x1 x2 x3 x4 x5 x6 x7 hc0 hc1).2.1, y ∈ pc.1.set :=
  View.cover_of_tiledL _ S64x64.size (by sl_kernel_rfl) y
-- The first point leaves in the accumulator the update of the cleared accumulator by its tiles.
theorem acc2_A (f) : T.a10.view.read (Elt F) (T.a10.view.writes (Elt F) f (kernelRun2_A c i T x0 x1 x2 x3 x4 x5 x6 x7 hc0 hc1).2.1) = k2_pay2 x0 x1 x2 x3 x4 (k2_pay1 (F := F)) := by
  rw [View.read_writes_eq_canon _ _ _ (scover2_A c i T x0 x1 x2 x3 x4 x5 x6 x7 hc0 hc1)]
  unfold kernelRun2_A
  dsimp only
  sl_unfold_words
  rw [View.canon_cons_unit_zero (S := S64x64) hz2, View.readCov_unit_zero (S := S64x64) _ hz2]
  simp only [View.readAt_eq_ld, T.h1.read_unread, T.h2.read_unread, T.h3.read_unread, T.h4.read_unread, T.h5.read_unread, T.h6.read_unread, T.h7.read_unread, T.h8.read_unread, T.h9.read_unread, T.h10.read_unread, View.ld_unit_zero (S := S5000x64) hz2, View.ld_unit_zero (S := S5000x1) hz2, View.ld_unit_zero (S := S64x64) hz2, View.ld_unit_zero (S := S1x64) hz2, View.ld_unit_zero (S := S64x1) hz2, View.ld_unit_zero (S := S1x1) hz2]
end A

variable (xs0 : Vec F S64x64 .f32)

section B
variable (hc0 : ¬cond2_0 i) (hc1 : ¬cond2_1 i)
theorem scover2_B (y : S64x64.Idx) : ∃ pc ∈ (kernelRun2_B c i T x0 x1 x2 x3 x4 x5 x6 x7 xs0 hc0 hc1).2.1, y ∈ pc.1.set :=
  View.cover_of_tiledL _ S64x64.size (by sl_kernel_rfl) y
-- A middle point leaves in the accumulator the update of what it found there.
theorem acc2_B (f) : T.a10.view.read (Elt F) (T.a10.view.writes (Elt F) f (kernelRun2_B c i T x0 x1 x2 x3 x4 x5 x6 x7 xs0 hc0 hc1).2.1) = k2_pay2 x0 x1 x2 x3 x4 xs0 := by
  rw [View.read_writes_eq_canon _ _ _ (scover2_B c i T x0 x1 x2 x3 x4 x5 x6 x7 xs0 hc0 hc1)]
  unfold kernelRun2_B
  dsimp only
  sl_unfold_words
  rw [View.canon_unit_zero hz2]
  simp only [View.readAt_eq_ld, T.h1.read_unread, T.h2.read_unread, T.h3.read_unread, T.h4.read_unread, T.h5.read_unread, T.h6.read_unread, T.h7.read_unread, T.h8.read_unread, T.h9.read_unread, T.h10.read_unread, View.ld_unit_zero (S := S5000x64) hz2, View.ld_unit_zero (S := S5000x1) hz2, View.ld_unit_zero (S := S64x64) hz2, View.ld_unit_zero (S := S1x64) hz2, View.ld_unit_zero (S := S64x1) hz2, View.ld_unit_zero (S := S1x1) hz2]
end B

section C
variable (hc0 : ¬cond2_0 i) (hc1 : cond2_1 i)
theorem scover2_C (y : S64x64.Idx) : ∃ pc ∈ (kernelRun2_C c i T x0 x1 x2 x3 x4 x5 x6 x7 xs0 hc0 hc1).2.1, y ∈ pc.1.set :=
  View.cover_of_tiledL _ S64x64.size (by sl_kernel_rfl) y
theorem cover2_C (y : S64x1.Idx) : ∃ pc ∈ (kernelRun2_C c i T x0 x1 x2 x3 x4 x5 x6 x7 xs0 hc0 hc1).1, y ∈ pc.1.set :=
  View.cover_of_tiledL _ S64x1.size (by sl_kernel_rfl) y
-- So does the last point, and it stores into the result tile the head of the accumulator it has just updated.
theorem acc2_C (f) : T.a10.view.read (Elt F) (T.a10.view.writes (Elt F) f (kernelRun2_C c i T x0 x1 x2 x3 x4 x5 x6 x7 xs0 hc0 hc1).2.1) = k2_pay2 x0 x1 x2 x3 x4 xs0 := by
  rw [View.read_writes_eq_canon _ _ _ (scover2_C c i T x0 x1 x2 x3 x4 x5 x6 x7 xs0 hc0 hc1)]
  unfold kernelRun2_C
  dsimp only
  sl_unfold_words
  rw [View.canon_unit_zero hz2]
  simp only [View.readAt_eq_ld, T.h1.read_unread, T.h2.read_unread, T.h3.read_unread, T.h4.read_unread, T.h5.read_unread, T.h6.read_unread, T.h7.read_unread, T.h8.read_unread, T.h9.read_unread, T.h10.read_unread, View.ld_unit_zero (S := S5000x64) hz2, View.ld_unit_zero (S := S5000x1) hz2, View.ld_unit_zero (S := S64x64) hz2, View.ld_unit_zero (S := S1x64) hz2, View.ld_unit_zero (S := S64x1) hz2, View.ld_unit_zero (S := S1x1) hz2]
theorem res2_C (f) : T.a9.view.read (Elt F) (T.a9.view.writes (Elt F) f (kernelRun2_C c i T x0 x1 x2 x3 x4 x5 x6 x7 xs0 hc0 hc1).1) = k2_pay3 (k2_pay2 x0 x1 x2 x3 x4 xs0) x5 x6 x7 := by
  rw [View.read_writes_eq_canon _ _ _ (cover2_C c i T x0 x1 x2 x3 x4 x5 x6 x7 xs0 hc0 hc1)]
  unfold kernelRun2_C
  dsimp only
  sl_unfold_words
  rw [View.canon_unit_zero hz2]
  simp only [View.readAt_eq_ld, T.h1.read_unread, T.h2.read_unread, T.h3.read_unread, T.h4.read_unread, T.h5.read_unread, T.h6.read_unread, T.h7.read_unread, T.h8.read_unread, T.h9.read_unread, T.h10.read_unread, View.ld_unit_zero (S := S5000x64) hz2, View.ld_unit_zero (S := S5000x1) hz2, View.ld_unit_zero (S := S64x64) hz2, View.ld_unit_zero (S := S1x64) hz2, View.ld_unit_zero (S := S64x1) hz2, View.ld_unit_zero (S := S1x1) hz2, View.readCov_unit_zero (S := S64x64) _ hz2]
end C

end Pieces

section Region2
variable (V : (c : Dev nD) → (b : Ref sig .tc) → Buf (Elt F) ((c : Thread nD τ).loc b))

-- The accumulator after each point: the first point updates the cleared accumulator, every later point what the point before left.
def accAt2 (c : Dev nD) : (n : ℕ) → n < cfg2.N → Vec F S64x64 .f32
  | 0, h => k2_pay2 (iblk2 V c 0 ⟨0, h⟩) (iblk2 V c 1 ⟨0, h⟩) (iblk2 V c 2 ⟨0, h⟩) (iblk2 V c 3 ⟨0, h⟩) (iblk2 V c 4 ⟨0, h⟩) (k2_pay1 (F := F))
  | n + 1, h => k2_pay2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accAt2 c n (Nat.lt_of_succ_lt h))

theorem accAt2_first (c : Dev nD) (t : Fin cfg2.N) (h0 : t.val = 0) :
    accAt2 V c t.val t.isLt = k2_pay2 (iblk2 V c 0 t) (iblk2 V c 1 t) (iblk2 V c 2 t) (iblk2 V c 3 t) (iblk2 V c 4 t) (k2_pay1 (F := F)) := by
  obtain ⟨_ | n, hn⟩ := t
  · rfl
  · exact absurd h0 (Nat.succ_ne_zero n)

theorem accAt2_next (c : Dev nD) (t : Fin cfg2.N) (h0 : t.val ≠ 0) :
    accAt2 V c t.val t.isLt = k2_pay2 (iblk2 V c 0 t) (iblk2 V c 1 t) (iblk2 V c 2 t) (iblk2 V c 3 t) (iblk2 V c 4 t) (accAt2 V c (t.val - 1) (Nat.lt_of_le_of_lt (Nat.sub_le _ _) t.isLt)) := by
  obtain ⟨_ | n, hn⟩ := t
  · exact absurd rfl h0
  · rfl

-- The launch's invariant before position `n`: the plain one before the first point, afterwards the accumulator at what the point before left.
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (accAt2 V c n hn) ∗ Rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ Rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay3 (accAt2 V c t.val t.isLt) (iblk2 V c 5 t) (iblk2 V c 6 t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_8 (c : Dev nD) (t : Fin cfg2.N) :
    (dat2 V c).after 8 t = k2_pay3 (accAt2 V c t.val t.isLt) (iblk2 V c 5 t) (iblk2 V c 6 t) (iblk2 V c 7 t) := rfl

-- An input window's tile holds its block at every point.
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

theorem leaves2_0 (c : Dev nD) (t : Fin cfg2.N) : (dat2 V c).leavesExact 0 t = owns (c : Thread nD τ) (tiles2 t).a1 fullShare (iblk2 V c 0 t) := by
  unfold Dat.leavesExact; rw [liveAt2_0 t]; rfl
theorem leaves2_1 (c : Dev nD) (t : Fin cfg2.N) : (dat2 V c).leavesExact 1 t = owns (c : Thread nD τ) (tiles2 t).a2 fullShare (iblk2 V c 1 t) := by
  unfold Dat.leavesExact; rw [liveAt2_1 t]; rfl
theorem leaves2_2 (c : Dev nD) (t : Fin cfg2.N) : (dat2 V c).leavesExact 2 t = owns (c : Thread nD τ) (tiles2 t).a3 fullShare (iblk2 V c 2 t) := by
  unfold Dat.leavesExact; rw [liveAt2_2 t]; rfl
theorem leaves2_3 (c : Dev nD) (t : Fin cfg2.N) : (dat2 V c).leavesExact 3 t = owns (c : Thread nD τ) (tiles2 t).a4 fullShare (iblk2 V c 3 t) := by
  unfold Dat.leavesExact; rw [liveAt2_3 t]; rfl
theorem leaves2_4 (c : Dev nD) (t : Fin cfg2.N) : (dat2 V c).leavesExact 4 t = owns (c : Thread nD τ) (tiles2 t).a5 fullShare (iblk2 V c 4 t) := by
  unfold Dat.leavesExact; rw [liveAt2_4 t]; rfl
theorem leaves2_5 (c : Dev nD) (t : Fin cfg2.N) : (dat2 V c).leavesExact 5 t = owns (c : Thread nD τ) (tiles2 t).a6 fullShare (iblk2 V c 5 t) := by
  unfold Dat.leavesExact; rw [liveAt2_5 t]; rfl
theorem leaves2_6 (c : Dev nD) (t : Fin cfg2.N) : (dat2 V c).leavesExact 6 t = owns (c : Thread nD τ) (tiles2 t).a7 fullShare (iblk2 V c 6 t) := by
  unfold Dat.leavesExact; rw [liveAt2_6 t]; rfl
theorem leaves2_7 (c : Dev nD) (t : Fin cfg2.N) : (dat2 V c).leavesExact 7 t = owns (c : Thread nD τ) (tiles2 t).a8 fullShare (iblk2 V c 7 t) := by
  unfold Dat.leavesExact; rw [liveAt2_7 t]; rfl

def bodyPre2 (c : Dev nD) (t : Fin cfg2.N) : sProp 𝕄 :=
  iprop((dat2 V c).Φ t.castSucc ∗ (dat2 V c).owesAt () t.castSucc
    ∗ (∃ d, owns (c : Thread nD τ) (tiles2 t).a1 fullShare ((dat2 V c).before 0 t d))
    ∗ (∃ d, owns (c : Thread nD τ) (tiles2 t).a2 fullShare ((dat2 V c).before 1 t d))
    ∗ (∃ d, owns (c : Thread nD τ) (tiles2 t).a3 fullShare ((dat2 V c).before 2 t d))
    ∗ (∃ d, owns (c : Thread nD τ) (tiles2 t).a4 fullShare ((dat2 V c).before 3 t d))
    ∗ (∃ d, owns (c : Thread nD τ) (tiles2 t).a5 fullShare ((dat2 V c).before 4 t d))
    ∗ (∃ d, owns (c : Thread nD τ) (tiles2 t).a6 fullShare ((dat2 V c).before 5 t d))
    ∗ (∃ d, owns (c : Thread nD τ) (tiles2 t).a7 fullShare ((dat2 V c).before 6 t d))
    ∗ (∃ d, owns (c : Thread nD τ) (tiles2 t).a8 fullShare ((dat2 V c).before 7 t d))
    ∗ (∃ d, owns (c : Thread nD τ) (tiles2 t).a9 fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 16000000 in
-- The body at any point: its position says which of the three kinds it is; the invariant hands it the accumulator and takes it back updated.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl,
    show (dat2 V c).Φ t.succ = PhiS2 V c (t.val + 1) t.isLt from rfl,
    show (dat2 V c).Φ t.castSucc = PhiS2 V c t.val (Nat.le_of_lt t.isLt) from rfl,
    PhiS2_succ,
    leaves2_0, leaves2_1, leaves2_2, leaves2_3, leaves2_4, leaves2_5, leaves2_6, leaves2_7]
  by_cases h0 : t.val = 0
  · have hc0 := (hcond2_0 t).mpr h0
    have hc1 : ¬cond2_1 (grid2.coords t) := fun h => by have := (hcond2_1 t).mp h; omega
    rw [Dat.leavesExact_idle (dat2 V c) 8 t (idleAt2_8 t hc1).1 (idleAt2_8 t hc1).2, PhiS2_zero V c _ _ h0, PhiA2_eq,
      accAt2_first V c t h0]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) (tiles2 t) (iblk2 V c 0 t) (iblk2 V c 1 t) (iblk2 V c 2 t) (iblk2 V c 3 t) (iblk2 V c 4 t) (iblk2 V c 5 t) (iblk2 V c 6 t) (iblk2 V c 7 t) hc0 hc1).2.2 _ Set.univ _)
    iframe H0 H1 H2 H3 H4 H5 H6 H7 H8 HS0
    iintro ⟨H0, H1, H2, H3, H4, H5, H6, H7, H8, ⟨%es0, HS0⟩⟩
    iframe Hrest Hg Ho H0 H1 H2 H3 H4 H5 H6 H7
    isplitl [HS0]
    · unfold owns; iexists _; isplitr
      swap; · iexact HS0
      ipureintro; exact acc2_A c (grid2.coords t) (tiles2 t) (iblk2 V c 0 t) (iblk2 V c 1 t) (iblk2 V c 2 t) (iblk2 V c 3 t) (iblk2 V c 4 t) (iblk2 V c 5 t) (iblk2 V c 6 t) (iblk2 V c 7 t) hc0 hc1 _
    iexists _; iexact H8
  · have hc0 : ¬cond2_0 (grid2.coords t) := fun h => h0 ((hcond2_0 t).mp h)
    rw [PhiS2_pos V c _ _ h0, accAt2_next V c t h0]
    by_cases h1 : t.val = 9
    · have hc1 := (hcond2_1 t).mpr h1
      rw [show (dat2 V c).leavesExact 8 t = owns (c : Thread nD τ) (tiles2 t).a9 fullShare ((dat2 V c).after 8 t) from by
        unfold Dat.leavesExact; rw [liveAt2_8 t hc1], after2_8, accAt2_next V c t h0]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1).2.2 Set.univ _)
      iframe H0 H1 H2 H3 H4 H5 H6 H7 HS0
      isplitl [H8]; · iexists _; iexact H8
      iintro ⟨H0, H1, H2, H3, H4, H5, H6, H7, ⟨%e8, H8⟩, ⟨%es0, HS0⟩⟩
      iframe Hrest Hg Ho H0 H1 H2 H3 H4 H5 H6 H7
      isplitl [HS0]
      · unfold owns; iexists _; isplitr
        swap; · iexact HS0
        ipureintro; exact acc2_C c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1 _
      unfold owns; iexists _; isplitr
      swap; · iexact H8
      ipureintro; exact res2_C c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1 _
    · have hc1 : ¬cond2_1 (grid2.coords t) := fun h => h1 ((hcond2_1 t).mp h)
      rw [Dat.leavesExact_idle (dat2 V c) 8 t (idleAt2_8 t hc1).1 (idleAt2_8 t hc1).2]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1).2.2 _ Set.univ _)
      iframe H0 H1 H2 H3 H4 H5 H6 H7 H8 HS0
      iintro ⟨H0, H1, H2, H3, H4, H5, H6, H7, H8, ⟨%es0, HS0⟩⟩
      iframe Hrest Hg Ho H0 H1 H2 H3 H4 H5 H6 H7
      isplitl [HS0]
      · unfold owns; iexists _; isplitr
        swap; · iexact HS0
        ipureintro; exact acc2_B c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1 _
      iexists _; iexact H8

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

-- After the last point the invariant gives the plain one back: the accumulator's contents are forgotten.
theorem hout2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c _ _ (by rw [show cfg2.N = 10 from N_2]; decide), PhiA2_eq]
  iintro ⟨⟨HS0, Hrest⟩, Hg⟩
  iframe Hrest Hg
  iexists _; iexact HS0

end Region2

end Cert.Kernel.Fr

end
-- ==== Proof.KB.Run.lean ====
import proofs.«408972_j53575422050753_2_alg».proof.Proof.KB.Reg0
import proofs.«408972_j53575422050753_2_alg».proof.Proof.KB.Reg1
import proofs.«408972_j53575422050753_2_alg».proof.Proof.KB.Reg2
import proofs.«408972_j53575422050753_2_alg».proof.Proof.Gen.Kernel.Regions
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

noncomputable section

namespace Cert.Kernel.Fr

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) :=
  fun c b => m ((c : Dev nD), b)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A launch changes its output array `o` only: an input window's array keeps its entry contents, any other reference is none of its arrays. -/
theorem keep_of {cfg : Pipeline.Cfg sig Λ₀} (hinj : Function.Injective (Pipeline.arrRef cfg.spec)) (c : Dev nD)
    (Vi : Valuation τ sig (Elt F)) (d : Dat τ (Elt F) Unit ℕ (UR sig nD τ) ℕ cfg c)
    (hA : ∀ w, d.A w = Vi (Proc.devRef .tc (Pipeline.arrRef cfg.spec w))) (o b : Ref sig .tc)
    (ho : ∀ w, Pipeline.arrRef cfg.spec w ≠ o → (cfg.win w).isOut = false) (hb : b ≠ o) :
    Pipeline.withArrays cfg.spec c Vi (fun w => d.arrAt w cfg.N) (Proc.devRef .tc b) = Vi (Proc.devRef .tc b) := by
  by_cases h : ∃ w, Pipeline.arrRef cfg.spec w = b
  · obtain ⟨w, rfl⟩ := h
    exact (Pipeline.withArrays_arr _ hinj c _ _ w).trans ((d.arrAt_in w (ho w hb) _).trans (hA w))
  · exact Pipeline.withArrays_of_ne _ c _ _ b fun w e => h ⟨w, e⟩

section Region

variable (pd : (p : Fin 3) → (c : Dev nD) → Dat τ (Elt F) Unit ℕ (UR sig nD τ) ℕ (Pipeline.pin (pcfgs (F := F)) adm p) c)

/-- A launch's exit contents: the entry contents with each of its arrays at its final contents. -/
abbrev exitOf (p : Fin 3) (Vi : Dev nD → Valuation τ sig (Elt F)) (c : Dev nD) : Valuation τ sig (Elt F) :=
  Pipeline.withArrays (cfgs p).spec c (Vi c) fun w => (pd p c).arrAt w (cfgs p).N

set_option backward.isDefEq.respectTransparency.types false in
/-- Launch `p` as a segment from the contents `Vi` to `exitOf`. -/
def regOf (p : Fin 3) (lf : Pipeline.LaunchFacts (nD := nD) (τ := τ) cfgs p) (Vi : Dev nD → Valuation τ sig (Elt F))
    (hb : ∀ c, Pipeline.BodyObligationLoose (pd p c) defs₀ 𝒱₀ () Set.univ)
    (hq : ∀ c w, (pd p c).q w = fullShare)
    (hA : ∀ c w, (pd p c).A w = Vi c (Proc.devRef .tc (Pipeline.arrRef (cfgs p).spec w)))
    (how : ∀ c t, (pd p c).owed t = 0) (hrec : ∀ c x, x ∈ (pd p c).recorded 0)
    (hΦi : ∀ c, Pipeline.ΦA (cfgs p).spec c ⊢ (pd p c).Φ 0)
    (hΦo : ∀ c, (pd p c).Φ (Fin.last (cfgs p).N) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p how
  pre c := iprop(StableHlo.held (c : Thread nD τ) (Pipeline.ucRefs τ sig) (Vi c) ∗ R c)
  post c := iprop(StableHlo.held (c : Thread nD τ) (Pipeline.ucRefs τ sig) (exitOf pd p Vi c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c (Proc.devRef .tc b)
  hentry c := by
    rw [Pipeline.ownSems0_none]
    have hsplit := Pipeline.arrays_of_unscopedBufs (p := p) (pcfgs (F := F)) adm pd lf.win lf.arr_whole c
      ((pd p c).share_full (hq c)) (fun b => Vi c (Proc.devRef .tc b)) (hA c)
    rw [Pipeline.unscopedBufs_held] at hsplit
    unfold Pipeline.Dat.owesAt Pipeline.owesWithin Pipeline.prefHeld
    rw [how, show (Finset.univ : Finset (Fin 0)) = ∅ from rfl, BI.bigSep_empty]
    iintro ⟨⟨Hub, Hp, %W, HO⟩, -, -⟩
    ihave H := hsplit $$ Hub
    icases H with ⟨Ha, Hrest⟩
    imodintro
    iframe Ha Hp Hrest
    isplitr; · iempintro
    iexists W; iframe HO
    ipureintro; exact fun x _ => Or.inl (hrec c x)
  hin c := by
    refine .trans ?_ (hΦi c); unfold Pipeline.ΦA
    iintro ⟨Hp, -, Hr⟩
    iframe
  hout c := by
    refine (hΦo c).trans ?_; rw [Pipeline.ownSems0_none]; unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => Vi c (Proc.devRef .tc b))
      (fun b => exitOf pd p Vi c (Proc.devRef .tc b)) ((pd p c).arrAt · (cfgs p).N)
      (fun w => (Pipeline.withArrays_arr (cfgs p).spec lf.win.arr_inj c (Vi c) (fun w => (pd p c).arrAt w (cfgs p).N) w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin R; rw [how]
    iintro ⟨Ha, ⟨%W, -, HO⟩, HY, Hrest⟩
    imodintro
    isplitl [Ha Hrest]
    · iapply hjoin; iframe
    iframe HY
    iexists W; iexact HO

end Region

variable (m : (ℓ : Loc nD τ sig) → Buf (Elt F) ℓ) (ρ : Dev nD → PrngReg)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def reg0 : Pipeline.RegionSeg (pcfgs (F := F)) adm (pdats m ρ) () defs₀ 𝒱₀ L lv 0 :=
  regOf (pdats m ρ) 0 launch0 (W1 m ρ) (fun c => (body_obligation0 (V1 m ρ) c).loose) (fun _ _ => rfl) (A_eq0 (V1 m ρ))
    (fun _ _ => rfl) (fun _ _ => trivial) (fun _ => .rfl) fun _ => .rfl
def reg1 : Pipeline.RegionSeg (pcfgs (F := F)) adm (pdats m ρ) () defs₀ 𝒱₀ L lv 1 :=
  regOf (pdats m ρ) 1 launch1 (W3 m ρ) (fun c => (body_obligation1 (V3 m ρ) c).loose) (fun _ _ => rfl) (A_eq1 (V3 m ρ))
    (fun _ _ => rfl) (fun _ _ => trivial) (fun _ => .rfl) fun _ => .rfl
def reg2 : Pipeline.RegionSeg (pcfgs (F := F)) adm (pdats m ρ) () defs₀ 𝒱₀ L lv 2 :=
  regOf (pdats m ρ) 2 launch2 (W5 m ρ) (fun c => (body_obligation2 (V5 m ρ) c).loose) (fun _ _ => rfl) (A_eq2 (V5 m ρ))
    (fun _ _ => rfl) (fun _ _ => trivial) (hin2 (V5 m ρ)) (hout2 (V5 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

set_option backward.isDefEq.respectTransparency.types false in
/-- Every weakly fair execution of the program terminates without a fault and ends with every buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      iframe)
    (hQ := fun s h => h)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W2_keep (c : Dev nD) (b : Ref sig .tc) (hb : b ≠ main_v34) :
    W2 m ρ c (Proc.devRef .tc b) = W1 m ρ c (Proc.devRef .tc b) :=
  keep_of launch0.win.arr_inj c _ (dat0 (V1 m ρ) c) (A_eq0 (V1 m ρ) c) main_v34 b (by decide) hb
theorem W4_keep (c : Dev nD) (b : Ref sig .tc) (hb : b ≠ main_v50) :
    W4 m ρ c (Proc.devRef .tc b) = W3 m ρ c (Proc.devRef .tc b) :=
  keep_of launch1.win.arr_inj c _ (dat1 (V3 m ρ) c) (A_eq1 (V3 m ρ) c) main_v50 b (by decide) hb
theorem W6_keep (c : Dev nD) (b : Ref sig .tc) (hb : b ≠ main_v79) :
    W6 m ρ c (Proc.devRef .tc b) = W5 m ρ c (Proc.devRef .tc b) :=
  keep_of launch2.win.arr_inj c _ (dat2 (V5 m ρ) c) (A_eq2 (V5 m ρ) c) main_v79 b (by decide) hb

theorem W2_main_v34 (c : Dev nD) : W2 m ρ c (Proc.devRef .tc main_v34) = (dat0 (V1 m ρ) c).arrAt 4 cfg0.N :=
  Pipeline.withArrays_arr spec0 launch0.win.arr_inj c _ _ 4
theorem W4_main_v50 (c : Dev nD) : W4 m ρ c (Proc.devRef .tc main_v50) = (dat1 (V3 m ρ) c).arrAt 4 cfg1.N :=
  Pipeline.withArrays_arr spec1 launch1.win.arr_inj c _ _ 4
theorem W6_main_v79 (c : Dev nD) : W6 m ρ c (Proc.devRef .tc main_v79) = (dat2 (V5 m ρ) c).arrAt 8 cfg2.N :=
  Pipeline.withArrays_arr spec2 launch2.win.arr_inj c _ _ 8

/-- A reference no host stretch writes and that is no launch's output array ends as launched. -/
theorem W6_untouched (c : Dev nD) (r : Ref sig .tc) (h0 : r ∉ hostOps0_W) (h1 : r ∉ hostOps1_W) (h2 : r ∉ hostOps2_W)
    (ha : r ≠ main_v34) (hb : r ≠ main_v50) (hc : r ≠ main_v79) :
    W6 m ρ c (Proc.devRef .tc r) = m ((c : Thread nD τ).loc r) :=
  (W6_keep m ρ c r hc).trans <| (W5_of m ρ c r h2).trans <| (W4_keep m ρ c r hb).trans <| (W3_of m ρ c r h1).trans <|
    (W2_keep m ρ c r ha).trans <| (W1_of m ρ c r h0).trans rfl

end Cert.Kernel.Fr

end
-- ==== Proof.KB.Frame.lean ====
import proofs.«408972_j53575422050753_2_alg».proof.Proof.KB.Run

noncomputable section

namespace Cert.Kernel.Fr

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

/-- The argument arrays: written by no host stretch, no launch's output array. -/
abbrev args : List (Ref sig .tc) :=
  [main_arg0, main_arg1, main_arg2, main_arg3, main_arg4, main_arg5, main_arg6, main_arg7, main_arg8, main_arg9, main_arg10]

/-- Every weakly fair execution from `m` terminates without a fault, the result buffer at the last boundary's contents and every argument array as launched. -/
theorem run_result : θ_run defs (onTc (τ := τ) (main (F := F))) ⟨m, fun _ => 0, ρ⟩ (fun r => ∀ c : Dev nD,
      r.2.mem ((c.tc : Thread nD τ).loc main_v79) = W6 m ρ c (Proc.devRef .tc main_v79)
      ∧ args.Forall fun a => r.2.mem ((c.tc : Thread nD τ).loc a) = m ((c.tc : Thread nD τ).loc a)) :=
  have ha : ∀ a ∈ args, ¬ (Proc.devRef .tc a : DevRef τ sig).isScoped ∧ a ∉ hostOps0_W ∧ a ∉ hostOps1_W ∧ a ∉ hostOps2_W
      ∧ a ≠ main_v34 ∧ a ≠ main_v50 ∧ a ≠ main_v79 := by decide
  (θ_run defs _ _).mono (fun r h c => ⟨h c _ (mem_uc main_v79 (by decide)), List.forall_iff_forall_mem.mpr fun a h' =>
    have ⟨hs, h0, h1, h2, h3, h4, h5⟩ := ha a h'
    (h c _ (mem_uc a hs)).trans (W6_untouched m ρ c a h0 h1 h2 h3 h4 h5)⟩) (run_all m ρ)

theorem frame : θ_run defs (onTc (τ := τ) (main (F := F))) ⟨m, fun _ => 0, ρ⟩ (fun r => ∀ c : Dev nD,
      args.Forall fun a => r.2.mem ((c.tc : Thread nD τ).loc a) = m ((c.tc : Thread nD τ).loc a)) :=
  (θ_run defs _ _).mono (fun r h c => (h c).2) (run_result m ρ)

end Cert.Kernel.Fr

end
-- ==== Proof.KI.Reg0.lean ====
import proofs.«408972_j53575422050753_2_alg».proof.Proof.Gen.KernelIdeal.Launch
import proofs.«408972_j53575422050753_2_alg».proof.Proof.Gen.KernelIdeal.Skeleton
import proofs.«408972_j53575422050753_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x1 := Rect.unit (s := S5000x1) ![0, 0] S5000x1.size inb_S5000x1_S5000x1_0_0
abbrev r0_1 : Rect S5000x2 := Rect.unit (s := S5000x2) ![0, 0] S5000x2.size inb_S5000x2_S5000x2_0_0
abbrev r0_2 : Rect S1x64 := Rect.unit (s := S1x64) ![0, 0] S1x64.size inb_S1x64_S1x64_0_0
abbrev r0_3 : Rect S1x64 := Rect.unit (s := S1x64) ![0, 0] S1x64.size inb_S1x64_S1x64_0_0
abbrev r0_4 : Rect S5000x64 := Rect.unit (s := S5000x64) ![0, 0] S5000x64.size inb_S5000x64_S5000x64_0_0

-- What the body leaves in the output tile: its one whole-tile store.
def out0_4 (x0 : Vec F S5000x1 .f32) (x1 : Vec F S5000x2 .f32) (x2 : Vec F S1x64 .f32) (x3 : Vec F S1x64 .f32) : Vec F S5000x64 .bf16 :=
  View.canon [⟨r0_4, k0_pay1 (View.ld x0 r0_0) (View.ld x1 r0_1) (View.ld x2 r0_2) (View.ld x3 r0_3)⟩]

theorem cover0_4 (p0 : Vec F S5000x64 .bf16) (y : S5000x64.Idx) :
    ∃ pc ∈ ([⟨r0_4, p0⟩] : List (View.Piece (Elt F) S5000x64 .bf16)), y ∈ pc.1.set :=
  View.cover_of_tiled [⟨r0_4, p0⟩] S5000x64.size (by rfl) y

set_option maxHeartbeats 4000000 in
-- The body on whole tiles, the inputs at known contents and the output at anything: the inputs stay, the output ends at `out0_4` of them.
theorem sound_kernel0 (c : Dev nD) (E : Set ℕ) (i : grid0.Coords) (arg1 : Memref sig .tc .vmem S5000x1 .f32) (harg1 : arg1.IsWhole) (arg2 : Memref sig .tc .vmem S5000x2 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .bf16) (harg5 : arg5.IsWhole)
    (x0 : Vec F S5000x1 .f32) (x1 : Vec F S5000x2 .f32) (x2 : Vec F S1x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__dense_relu_kernel i arg1 harg1 arg2 harg2 arg3 harg3 arg4 harg4 arg5 harg5) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = out0_4 (iblk0 V c 0 t) (iblk0 V c 1 t) (iblk0 V c 2 t) (iblk0 V c 3 t) := by dsimp only [dat0]

-- An input window's tile holds its block at every point.
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

-- The body at any point: the input tiles hold their blocks, so the body's triple applies; the invariant and the dues pass through.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  iframe H0 H1 H2 H3
  isplitl [H4]; · iexists _; iexact H4
  iintro ⟨H0, H1, H2, H3, H4⟩
  iframe

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.Reg1.lean ====
import proofs.«408972_j53575422050753_2_alg».proof.Proof.Gen.KernelIdeal.Launch
import proofs.«408972_j53575422050753_2_alg».proof.Proof.Gen.KernelIdeal.Skeleton
import proofs.«408972_j53575422050753_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S5000x2 := Rect.unit (s := S5000x2) ![0, 0] S5000x2.size inb_S5000x2_S5000x2_0_0
abbrev r1_2 : Rect S64x64 := Rect.unit (s := S64x64) ![0, 0] S64x64.size inb_S64x64_S64x64_0_0
abbrev r1_3 : Rect S1x64 := Rect.unit (s := S1x64) ![0, 0] S1x64.size inb_S1x64_S1x64_0_0
abbrev r1_4 : Rect S5000x64 := Rect.unit (s := S5000x64) ![0, 0] S5000x64.size inb_S5000x64_S5000x64_0_0

-- What the body leaves in the output tile: its one whole-tile store.
def out1_4 (x0 : Vec F S5000x64 .f32) (x1 : Vec F S5000x2 .f32) (x2 : Vec F S64x64 .f32) (x3 : Vec F S1x64 .f32) : Vec F S5000x64 .bf16 :=
  View.canon [⟨r1_4, k1_pay1 (View.ld x0 r1_0) (View.ld x1 r1_1) (View.ld x2 r1_2) (View.ld x3 r1_3)⟩]

theorem cover1_4 (p0 : Vec F S5000x64 .bf16) (y : S5000x64.Idx) :
    ∃ pc ∈ ([⟨r1_4, p0⟩] : List (View.Piece (Elt F) S5000x64 .bf16)), y ∈ pc.1.set :=
  View.cover_of_tiled [⟨r1_4, p0⟩] S5000x64.size (by rfl) y

set_option maxHeartbeats 4000000 in
-- The body on whole tiles, the inputs at known contents and the output at anything: the inputs stay, the output ends at `out1_4` of them.
theorem sound_kernel1 (c : Dev nD) (E : Set ℕ) (i : grid1.Coords) (arg1 : Memref sig .tc .vmem S5000x64 .f32) (harg1 : arg1.IsWhole) (arg2 : Memref sig .tc .vmem S5000x2 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .bf16) (harg5 : arg5.IsWhole)
    (x0 : Vec F S5000x64 .f32) (x1 : Vec F S5000x2 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__dense_relu_kernel i arg1 harg1 arg2 harg2 arg3 harg3 arg4 harg4 arg5 harg5) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) : (dat1 V c).after 3 t = iblk1 V c 3 t := rfl
theorem after1_4 (c : Dev nD) (t : Fin cfg1.N) : (dat1 V c).after 4 t = out1_4 (iblk1 V c 0 t) (iblk1 V c 1 t) (iblk1 V c 2 t) (iblk1 V c 3 t) := by dsimp only [dat1]

-- An input window's tile holds its block at every point.
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

-- The body at any point: the input tiles hold their blocks, so the body's triple applies; the invariant and the dues pass through.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KI.Reg2Runs.lean ====
import proofs.«408972_j53575422050753_2_alg».proof.Proof.Gen.KernelIdeal.Launch
import proofs.«408972_j53575422050753_2_alg».proof.Proof.Gen.KernelIdeal.Skeleton
import proofs.«408972_j53575422050753_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Region2

abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1

-- The body's first conditional holds at the first grid point only, its second at the last only.
theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 9 :=
  (by decide +kernel : ∀ t : Fin grid2.N, cond2_1 (grid2.coords t) ↔ t.val = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem idleAt2_8 : ∀ t : Fin cfg2.N, ¬cond2_1 (grid2.coords t) → cfg2.idle 8 (grid2.coords t) = true ∧ (cfg2.win 8).flush t = false := by decide +kernel
theorem liveAt2_8 : ∀ t : Fin cfg2.N, cond2_1 (grid2.coords t) → cfg2.idle 8 (grid2.coords t) = false := by decide +kernel

-- The ten whole tiles the body is called on.
structure Tiles2 where
  a1 : Memref sig .tc .vmem S5000x64 .f32
  h1 : a1.IsWhole
  a2 : Memref sig .tc .vmem S5000x1 .f32
  h2 : a2.IsWhole
  a3 : Memref sig .tc .vmem S64x64 .f32
  h3 : a3.IsWhole
  a4 : Memref sig .tc .vmem S1x64 .f32
  h4 : a4.IsWhole
  a5 : Memref sig .tc .vmem S5000x64 .bf16
  h5 : a5.IsWhole
  a6 : Memref sig .tc .vmem S64x1 .f32
  h6 : a6.IsWhole
  a7 : Memref sig .tc .vmem S64x1 .f32
  h7 : a7.IsWhole
  a8 : Memref sig .tc .vmem S1x1 .f32
  h8 : a8.IsWhole
  a9 : Memref sig .tc .vmem S64x1 .f32
  h9 : a9.IsWhole
  a10 : Memref sig .tc .vmem S64x64 .f32
  h10 : a10.IsWhole

abbrev tiles2 (t : Fin cfg2.N) : Tiles2 := ⟨win2_0.stage (cfg2.slots t 0), hstage2_0 ((cfg2.slots t 0).cast nbuf2_0), win2_1.stage (cfg2.slots t 1), hstage2_1 ((cfg2.slots t 1).cast nbuf2_1), win2_2.stage (cfg2.slots t 2), hstage2_2 ((cfg2.slots t 2).cast nbuf2_2), win2_3.stage (cfg2.slots t 3), hstage2_3 ((cfg2.slots t 3).cast nbuf2_3), win2_4.stage (cfg2.slots t 4), hstage2_4 ((cfg2.slots t 4).cast nbuf2_4), win2_5.stage (cfg2.slots t 5), hstage2_5 ((cfg2.slots t 5).cast nbuf2_5), win2_6.stage (cfg2.slots t 6), hstage2_6 ((cfg2.slots t 6).cast nbuf2_6), win2_7.stage (cfg2.slots t 7), hstage2_7 ((cfg2.slots t 7).cast nbuf2_7), win2_8.stage (cfg2.slots t 8), hstage2_8 ((cfg2.slots t 8).cast nbuf2_8), Memref.whole cc2_scratch0, Memref.isWhole_whole _⟩

-- A whole tile owned at contents `X` is its points-to at the raw contents that read `X`.
theorem owns_unread {s : Shape} {e : EltTy} (c : Dev nD) (a : Memref sig .tc .vmem s e) (h : a.IsWhole) (X : Vec F s e) :
    (owns (c : Thread nD τ) a fullShare X : sProp 𝕄) = (a.view.loc (c : Thread nD τ) ↦[a.view.set]{fullShare} h.unread X) := by
  have h₁ : (owns (c : Thread nD τ) a fullShare X : sProp 𝕄) ⊢ (a.view.loc (c : Thread nD τ) ↦[a.view.set]{fullShare} h.unread X) := by
    unfold owns; iintro ⟨%f, %hf, H⟩
    obtain rfl := h.eq_unread hf
    iexact H
  have h₂ : (a.view.loc (c : Thread nD τ) ↦[a.view.set]{fullShare} h.unread X : sProp 𝕄) ⊢ owns (c : Thread nD τ) a fullShare X := by
    unfold owns; iintro H
    iexists _; isplitr; · ipureintro; exact h.read_unread X
    iexact H
  exact BI.equiv_iff.mp ⟨h₁, h₂⟩

abbrev scM2_0 : Memref sig .tc .vmem S64x64 .f32 := Memref.whole cc2_scratch0

abbrev Rest2 (c : Dev nD) : sProp 𝕄 :=
  Pipeline.scopedRestBut (Ix := Unit) (Name := ℕ) (U := UR sig nD τ) (Lvl := ℕ) (Val := Elt F) spec2 c [cc2_scratch0]

-- The launch's plain invariant with the accumulator split off from the other buffers.
theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA
  rw [Pipeline.scopedRest_split_of_list spec2 c [cc2_scratch0] (by decide) (by decide)]
  simp only [scM2_0, owns_whole]; try rfl

end Cert.KernelIdeal.Fr

end
-- ==== Proof.KI.Reg2Run.lean ====
import proofs.«408972_j53575422050753_2_alg».proof.Proof.KI.Reg2Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid2.Coords) (T : Tiles2) (x0 : Vec F S5000x64 .f32) (x1 : Vec F S5000x1 .f32) (x2 : Vec F S64x64 .f32) (x3 : Vec F S1x64 .f32) (x4 : Vec F S5000x64 .bf16) (x5 : Vec F S64x1 .f32) (x6 : Vec F S64x1 .f32) (x7 : Vec F S1x1 .f32)

set_option maxHeartbeats 4000000 in
-- The body at the first point: the accumulator, found at anything, is left with the listed pieces written; the result tile is untouched.
noncomputable def kernelRun2_A (hc0 : cond2_0 i) (hc1 : ¬cond2_1 i) :
    Σ' (L8 : List (View.Piece (Elt F) S64x1 .f32)), { LS0 : List (View.Piece (Elt F) S64x64 .f32) //
      ∀ (xi8 : Vec F S64x1 .f32) (E : Set ℕ) (K : PUnit → sProp 𝕄),
        iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ owns (c : Thread nD τ) T.a9 fullShare xi8 ∗ (∃ d, owns (c : Thread nD τ) T.a10 fullShare d)
            ∗ (iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ owns (c : Thread nD τ) T.a9 fullShare xi8 ∗ (∃ f, T.a10.view.loc (c : Thread nD τ) ↦[T.a10.view.set]{fullShare} T.a10.view.writes (Elt F) f LS0)) -∗ K ⟨⟩))
          ⊢ wp frame (wpE (defs₀ (F := F)) Variants.none c none) E (cc2__final_kernel i T.a1 T.h1 T.a2 T.h2 T.a3 T.h3 T.a4 T.h4 T.a5 T.h5 T.a6 T.h6 T.a7 T.h7 T.a8 T.h8 T.a9 T.h9 T.a10 T.h10) K } := by
  refine ⟨[], ?_, fun xi8 E K => ?run⟩
  case run =>
    simp only [cc2__final_kernel_eq_skeleton]; unfold cc2__final_kernel_skel
    rw [owns_unread c T.a1 T.h1, owns_unread c T.a2 T.h2, owns_unread c T.a3 T.h3, owns_unread c T.a4 T.h4, owns_unread c T.a5 T.h5, owns_unread c T.a6 T.h6, owns_unread c T.a7 T.h7, owns_unread c T.a8 T.h8, owns_unread c T.a9 T.h9]
    unfold owns
    iintro ⟨H0, H1, H2, H3, H4, H5, H6, H7, H8, ⟨%ds0, %fs0, -, HS0⟩, Hk⟩
    sl_exec (disch := first | exact hc0 | exact hc1)
    sl_step
    iapply Hk
    iframe H0 H1 H2 H3 H4 H5 H6 H7 H8
    iexists _; iexact HS0

variable (xs0 : Vec F S64x64 .f32)

set_option maxHeartbeats 4000000 in
-- The body at a middle point: the accumulator, found at `xs0`, is left with the listed pieces written; the result tile is untouched.
noncomputable def kernelRun2_B (hc0 : ¬cond2_0 i) (hc1 : ¬cond2_1 i) :
    Σ' (L8 : List (View.Piece (Elt F) S64x1 .f32)), { LS0 : List (View.Piece (Elt F) S64x64 .f32) //
      ∀ (xi8 : Vec F S64x1 .f32) (E : Set ℕ) (K : PUnit → sProp 𝕄),
        iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ owns (c : Thread nD τ) T.a9 fullShare xi8 ∗ owns (c : Thread nD τ) T.a10 fullShare xs0
            ∗ (iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ owns (c : Thread nD τ) T.a9 fullShare xi8 ∗ (∃ f, T.a10.view.loc (c : Thread nD τ) ↦[T.a10.view.set]{fullShare} T.a10.view.writes (Elt F) f LS0)) -∗ K ⟨⟩))
          ⊢ wp frame (wpE (defs₀ (F := F)) Variants.none c none) E (cc2__final_kernel i T.a1 T.h1 T.a2 T.h2 T.a3 T.h3 T.a4 T.h4 T.a5 T.h5 T.a6 T.h6 T.a7 T.h7 T.a8 T.h8 T.a9 T.h9 T.a10 T.h10) K } := by
  refine ⟨[], ?_, fun xi8 E K => ?run⟩
  case run =>
    simp only [cc2__final_kernel_eq_skeleton]; unfold cc2__final_kernel_skel
    rw [owns_unread c T.a1 T.h1, owns_unread c T.a2 T.h2, owns_unread c T.a3 T.h3, owns_unread c T.a4 T.h4, owns_unread c T.a5 T.h5, owns_unread c T.a6 T.h6, owns_unread c T.a7 T.h7, owns_unread c T.a8 T.h8, owns_unread c T.a9 T.h9, owns_unread c T.a10 T.h10]
    iintro ⟨H0, H1, H2, H3, H4, H5, H6, H7, H8, HS0, Hk⟩
    sl_exec (disch := first | exact hc0 | exact hc1)
    sl_step
    iapply Hk
    iframe H0 H1 H2 H3 H4 H5 H6 H7 H8
    iexists _; iexact HS0

set_option maxHeartbeats 4000000 in
-- The body at the last point: pieces are written into the result tile, found at anything, and into the accumulator, found at `xs0`.
noncomputable def kernelRun2_C (hc0 : ¬cond2_0 i) (hc1 : cond2_1 i) :
    Σ' (L8 : List (View.Piece (Elt F) S64x1 .f32)), { LS0 : List (View.Piece (Elt F) S64x64 .f32) //
      ∀ (E : Set ℕ) (K : PUnit → sProp 𝕄),
        iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ (∃ d, owns (c : Thread nD τ) T.a9 fullShare d) ∗ owns (c : Thread nD τ) T.a10 fullShare xs0
            ∗ (iprop(owns (c : Thread nD τ) T.a1 fullShare x0 ∗ owns (c : Thread nD τ) T.a2 fullShare x1 ∗ owns (c : Thread nD τ) T.a3 fullShare x2 ∗ owns (c : Thread nD τ) T.a4 fullShare x3 ∗ owns (c : Thread nD τ) T.a5 fullShare x4 ∗ owns (c : Thread nD τ) T.a6 fullShare x5 ∗ owns (c : Thread nD τ) T.a7 fullShare x6 ∗ owns (c : Thread nD τ) T.a8 fullShare x7 ∗ (∃ f, T.a9.view.loc (c : Thread nD τ) ↦[T.a9.view.set]{fullShare} T.a9.view.writes (Elt F) f L8) ∗ (∃ f, T.a10.view.loc (c : Thread nD τ) ↦[T.a10.view.set]{fullShare} T.a10.view.writes (Elt F) f LS0)) -∗ K ⟨⟩))
          ⊢ wp frame (wpE (defs₀ (F := F)) Variants.none c none) E (cc2__final_kernel i T.a1 T.h1 T.a2 T.h2 T.a3 T.h3 T.a4 T.h4 T.a5 T.h5 T.a6 T.h6 T.a7 T.h7 T.a8 T.h8 T.a9 T.h9 T.a10 T.h10) K } := by
  refine ⟨?_, ?_, fun E K => ?run⟩
  case run =>
    simp only [cc2__final_kernel_eq_skeleton]; unfold cc2__final_kernel_skel
    rw [owns_unread c T.a1 T.h1, owns_unread c T.a2 T.h2, owns_unread c T.a3 T.h3, owns_unread c T.a4 T.h4, owns_unread c T.a5 T.h5, owns_unread c T.a6 T.h6, owns_unread c T.a7 T.h7, owns_unread c T.a8 T.h8, owns_unread c T.a10 T.h10]
    unfold owns
    iintro ⟨H0, H1, H2, H3, H4, H5, H6, H7, ⟨%d8, %f8, -, H8⟩, HS0, Hk⟩
    sl_exec (disch := first | exact hc0 | exact hc1)
    sl_step
    iapply Hk
    iframe H0 H1 H2 H3 H4 H5 H6 H7
    isplitl [H8]; · iexists _; iexact H8
    iexists _; iexact HS0

end Cert.KernelIdeal.Fr

end
-- ==== Proof.KI.Reg2.lean ====
import proofs.«408972_j53575422050753_2_alg».proof.Proof.KI.Reg2Run
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section Pieces
variable (c : Dev nD) (i : grid2.Coords) (T : Tiles2) (x0 : Vec F S5000x64 .f32) (x1 : Vec F S5000x1 .f32) (x2 : Vec F S64x64 .f32) (x3 : Vec F S1x64 .f32) (x4 : Vec F S5000x64 .bf16) (x5 : Vec F S64x1 .f32) (x6 : Vec F S64x1 .f32) (x7 : Vec F S1x1 .f32)

section A
variable (hc0 : cond2_0 i) (hc1 : ¬cond2_1 i)
theorem scover2_A (y : S64x64.Idx) : ∃ pc ∈ (kernelRun2_A c i T x0 x1 x2 x3 x4 x5 x6 x7 hc0 hc1).2.1, y ∈ pc.1.set :=
  View.cover_of_tiledL _ S64x64.size (by sl_kernel_rfl) y
-- The first point leaves in the accumulator the update of the cleared accumulator by its tiles.
theorem acc2_A (f) : T.a10.view.read (Elt F) (T.a10.view.writes (Elt F) f (kernelRun2_A c i T x0 x1 x2 x3 x4 x5 x6 x7 hc0 hc1).2.1) = k2_pay2 x0 x1 x2 x3 x4 (k2_pay1 (F := F)) := by
  rw [View.read_writes_eq_canon _ _ _ (scover2_A c i T x0 x1 x2 x3 x4 x5 x6 x7 hc0 hc1)]
  unfold kernelRun2_A
  dsimp only
  sl_unfold_words
  rw [View.canon_cons_unit_zero (S := S64x64) hz2, View.readCov_unit_zero (S := S64x64) _ hz2]
  simp only [View.readAt_eq_ld, T.h1.read_unread, T.h2.read_unread, T.h3.read_unread, T.h4.read_unread, T.h5.read_unread, T.h6.read_unread, T.h7.read_unread, T.h8.read_unread, T.h9.read_unread, T.h10.read_unread, View.ld_unit_zero (S := S5000x64) hz2, View.ld_unit_zero (S := S5000x1) hz2, View.ld_unit_zero (S := S64x64) hz2, View.ld_unit_zero (S := S1x64) hz2, View.ld_unit_zero (S := S64x1) hz2, View.ld_unit_zero (S := S1x1) hz2]
end A

variable (xs0 : Vec F S64x64 .f32)

section B
variable (hc0 : ¬cond2_0 i) (hc1 : ¬cond2_1 i)
theorem scover2_B (y : S64x64.Idx) : ∃ pc ∈ (kernelRun2_B c i T x0 x1 x2 x3 x4 x5 x6 x7 xs0 hc0 hc1).2.1, y ∈ pc.1.set :=
  View.cover_of_tiledL _ S64x64.size (by sl_kernel_rfl) y
-- A middle point leaves in the accumulator the update of what it found there.
theorem acc2_B (f) : T.a10.view.read (Elt F) (T.a10.view.writes (Elt F) f (kernelRun2_B c i T x0 x1 x2 x3 x4 x5 x6 x7 xs0 hc0 hc1).2.1) = k2_pay2 x0 x1 x2 x3 x4 xs0 := by
  rw [View.read_writes_eq_canon _ _ _ (scover2_B c i T x0 x1 x2 x3 x4 x5 x6 x7 xs0 hc0 hc1)]
  unfold kernelRun2_B
  dsimp only
  sl_unfold_words
  rw [View.canon_unit_zero hz2]
  simp only [View.readAt_eq_ld, T.h1.read_unread, T.h2.read_unread, T.h3.read_unread, T.h4.read_unread, T.h5.read_unread, T.h6.read_unread, T.h7.read_unread, T.h8.read_unread, T.h9.read_unread, T.h10.read_unread, View.ld_unit_zero (S := S5000x64) hz2, View.ld_unit_zero (S := S5000x1) hz2, View.ld_unit_zero (S := S64x64) hz2, View.ld_unit_zero (S := S1x64) hz2, View.ld_unit_zero (S := S64x1) hz2, View.ld_unit_zero (S := S1x1) hz2]
end B

section C
variable (hc0 : ¬cond2_0 i) (hc1 : cond2_1 i)
theorem scover2_C (y : S64x64.Idx) : ∃ pc ∈ (kernelRun2_C c i T x0 x1 x2 x3 x4 x5 x6 x7 xs0 hc0 hc1).2.1, y ∈ pc.1.set :=
  View.cover_of_tiledL _ S64x64.size (by sl_kernel_rfl) y
theorem cover2_C (y : S64x1.Idx) : ∃ pc ∈ (kernelRun2_C c i T x0 x1 x2 x3 x4 x5 x6 x7 xs0 hc0 hc1).1, y ∈ pc.1.set :=
  View.cover_of_tiledL _ S64x1.size (by sl_kernel_rfl) y
-- So does the last point, and it stores into the result tile the head of the accumulator it has just updated.
theorem acc2_C (f) : T.a10.view.read (Elt F) (T.a10.view.writes (Elt F) f (kernelRun2_C c i T x0 x1 x2 x3 x4 x5 x6 x7 xs0 hc0 hc1).2.1) = k2_pay2 x0 x1 x2 x3 x4 xs0 := by
  rw [View.read_writes_eq_canon _ _ _ (scover2_C c i T x0 x1 x2 x3 x4 x5 x6 x7 xs0 hc0 hc1)]
  unfold kernelRun2_C
  dsimp only
  sl_unfold_words
  rw [View.canon_unit_zero hz2]
  simp only [View.readAt_eq_ld, T.h1.read_unread, T.h2.read_unread, T.h3.read_unread, T.h4.read_unread, T.h5.read_unread, T.h6.read_unread, T.h7.read_unread, T.h8.read_unread, T.h9.read_unread, T.h10.read_unread, View.ld_unit_zero (S := S5000x64) hz2, View.ld_unit_zero (S := S5000x1) hz2, View.ld_unit_zero (S := S64x64) hz2, View.ld_unit_zero (S := S1x64) hz2, View.ld_unit_zero (S := S64x1) hz2, View.ld_unit_zero (S := S1x1) hz2]
theorem res2_C (f) : T.a9.view.read (Elt F) (T.a9.view.writes (Elt F) f (kernelRun2_C c i T x0 x1 x2 x3 x4 x5 x6 x7 xs0 hc0 hc1).1) = k2_pay3 (k2_pay2 x0 x1 x2 x3 x4 xs0) x5 x6 x7 := by
  rw [View.read_writes_eq_canon _ _ _ (cover2_C c i T x0 x1 x2 x3 x4 x5 x6 x7 xs0 hc0 hc1)]
  unfold kernelRun2_C
  dsimp only
  sl_unfold_words
  rw [View.canon_unit_zero hz2]
  simp only [View.readAt_eq_ld, T.h1.read_unread, T.h2.read_unread, T.h3.read_unread, T.h4.read_unread, T.h5.read_unread, T.h6.read_unread, T.h7.read_unread, T.h8.read_unread, T.h9.read_unread, T.h10.read_unread, View.ld_unit_zero (S := S5000x64) hz2, View.ld_unit_zero (S := S5000x1) hz2, View.ld_unit_zero (S := S64x64) hz2, View.ld_unit_zero (S := S1x64) hz2, View.ld_unit_zero (S := S64x1) hz2, View.ld_unit_zero (S := S1x1) hz2, View.readCov_unit_zero (S := S64x64) _ hz2]
end C

end Pieces

section Region2
variable (V : (c : Dev nD) → (b : Ref sig .tc) → Buf (Elt F) ((c : Thread nD τ).loc b))

-- The accumulator after each point: the first point updates the cleared accumulator, every later point what the point before left.
def accAt2 (c : Dev nD) : (n : ℕ) → n < cfg2.N → Vec F S64x64 .f32
  | 0, h => k2_pay2 (iblk2 V c 0 ⟨0, h⟩) (iblk2 V c 1 ⟨0, h⟩) (iblk2 V c 2 ⟨0, h⟩) (iblk2 V c 3 ⟨0, h⟩) (iblk2 V c 4 ⟨0, h⟩) (k2_pay1 (F := F))
  | n + 1, h => k2_pay2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accAt2 c n (Nat.lt_of_succ_lt h))

theorem accAt2_first (c : Dev nD) (t : Fin cfg2.N) (h0 : t.val = 0) :
    accAt2 V c t.val t.isLt = k2_pay2 (iblk2 V c 0 t) (iblk2 V c 1 t) (iblk2 V c 2 t) (iblk2 V c 3 t) (iblk2 V c 4 t) (k2_pay1 (F := F)) := by
  obtain ⟨_ | n, hn⟩ := t
  · rfl
  · exact absurd h0 (Nat.succ_ne_zero n)

theorem accAt2_next (c : Dev nD) (t : Fin cfg2.N) (h0 : t.val ≠ 0) :
    accAt2 V c t.val t.isLt = k2_pay2 (iblk2 V c 0 t) (iblk2 V c 1 t) (iblk2 V c 2 t) (iblk2 V c 3 t) (iblk2 V c 4 t) (accAt2 V c (t.val - 1) (Nat.lt_of_le_of_lt (Nat.sub_le _ _) t.isLt)) := by
  obtain ⟨_ | n, hn⟩ := t
  · exact absurd rfl h0
  · rfl

-- The launch's invariant before position `n`: the plain one before the first point, afterwards the accumulator at what the point before left.
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (accAt2 V c n hn) ∗ Rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ Rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay3 (accAt2 V c t.val t.isLt) (iblk2 V c 5 t) (iblk2 V c 6 t) (iblk2 V c 7 t)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_8 (c : Dev nD) (t : Fin cfg2.N) :
    (dat2 V c).after 8 t = k2_pay3 (accAt2 V c t.val t.isLt) (iblk2 V c 5 t) (iblk2 V c 6 t) (iblk2 V c 7 t) := rfl

-- An input window's tile holds its block at every point.
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

theorem leaves2_0 (c : Dev nD) (t : Fin cfg2.N) : (dat2 V c).leavesExact 0 t = owns (c : Thread nD τ) (tiles2 t).a1 fullShare (iblk2 V c 0 t) := by
  unfold Dat.leavesExact; rw [liveAt2_0 t]; rfl
theorem leaves2_1 (c : Dev nD) (t : Fin cfg2.N) : (dat2 V c).leavesExact 1 t = owns (c : Thread nD τ) (tiles2 t).a2 fullShare (iblk2 V c 1 t) := by
  unfold Dat.leavesExact; rw [liveAt2_1 t]; rfl
theorem leaves2_2 (c : Dev nD) (t : Fin cfg2.N) : (dat2 V c).leavesExact 2 t = owns (c : Thread nD τ) (tiles2 t).a3 fullShare (iblk2 V c 2 t) := by
  unfold Dat.leavesExact; rw [liveAt2_2 t]; rfl
theorem leaves2_3 (c : Dev nD) (t : Fin cfg2.N) : (dat2 V c).leavesExact 3 t = owns (c : Thread nD τ) (tiles2 t).a4 fullShare (iblk2 V c 3 t) := by
  unfold Dat.leavesExact; rw [liveAt2_3 t]; rfl
theorem leaves2_4 (c : Dev nD) (t : Fin cfg2.N) : (dat2 V c).leavesExact 4 t = owns (c : Thread nD τ) (tiles2 t).a5 fullShare (iblk2 V c 4 t) := by
  unfold Dat.leavesExact; rw [liveAt2_4 t]; rfl
theorem leaves2_5 (c : Dev nD) (t : Fin cfg2.N) : (dat2 V c).leavesExact 5 t = owns (c : Thread nD τ) (tiles2 t).a6 fullShare (iblk2 V c 5 t) := by
  unfold Dat.leavesExact; rw [liveAt2_5 t]; rfl
theorem leaves2_6 (c : Dev nD) (t : Fin cfg2.N) : (dat2 V c).leavesExact 6 t = owns (c : Thread nD τ) (tiles2 t).a7 fullShare (iblk2 V c 6 t) := by
  unfold Dat.leavesExact; rw [liveAt2_6 t]; rfl
theorem leaves2_7 (c : Dev nD) (t : Fin cfg2.N) : (dat2 V c).leavesExact 7 t = owns (c : Thread nD τ) (tiles2 t).a8 fullShare (iblk2 V c 7 t) := by
  unfold Dat.leavesExact; rw [liveAt2_7 t]; rfl

def bodyPre2 (c : Dev nD) (t : Fin cfg2.N) : sProp 𝕄 :=
  iprop((dat2 V c).Φ t.castSucc ∗ (dat2 V c).owesAt () t.castSucc
    ∗ (∃ d, owns (c : Thread nD τ) (tiles2 t).a1 fullShare ((dat2 V c).before 0 t d))
    ∗ (∃ d, owns (c : Thread nD τ) (tiles2 t).a2 fullShare ((dat2 V c).before 1 t d))
    ∗ (∃ d, owns (c : Thread nD τ) (tiles2 t).a3 fullShare ((dat2 V c).before 2 t d))
    ∗ (∃ d, owns (c : Thread nD τ) (tiles2 t).a4 fullShare ((dat2 V c).before 3 t d))
    ∗ (∃ d, owns (c : Thread nD τ) (tiles2 t).a5 fullShare ((dat2 V c).before 4 t d))
    ∗ (∃ d, owns (c : Thread nD τ) (tiles2 t).a6 fullShare ((dat2 V c).before 5 t d))
    ∗ (∃ d, owns (c : Thread nD τ) (tiles2 t).a7 fullShare ((dat2 V c).before 6 t d))
    ∗ (∃ d, owns (c : Thread nD τ) (tiles2 t).a8 fullShare ((dat2 V c).before 7 t d))
    ∗ (∃ d, owns (c : Thread nD τ) (tiles2 t).a9 fullShare ((dat2 V c).before 8 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 16000000 in
-- The body at any point: its position says which of the three kinds it is; the invariant hands it the accumulator and takes it back updated.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl,
    show (dat2 V c).Φ t.succ = PhiS2 V c (t.val + 1) t.isLt from rfl,
    show (dat2 V c).Φ t.castSucc = PhiS2 V c t.val (Nat.le_of_lt t.isLt) from rfl,
    PhiS2_succ,
    leaves2_0, leaves2_1, leaves2_2, leaves2_3, leaves2_4, leaves2_5, leaves2_6, leaves2_7]
  by_cases h0 : t.val = 0
  · have hc0 := (hcond2_0 t).mpr h0
    have hc1 : ¬cond2_1 (grid2.coords t) := fun h => by have := (hcond2_1 t).mp h; omega
    rw [Dat.leavesExact_idle (dat2 V c) 8 t (idleAt2_8 t hc1).1 (idleAt2_8 t hc1).2, PhiS2_zero V c _ _ h0, PhiA2_eq,
      accAt2_first V c t h0]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) (tiles2 t) (iblk2 V c 0 t) (iblk2 V c 1 t) (iblk2 V c 2 t) (iblk2 V c 3 t) (iblk2 V c 4 t) (iblk2 V c 5 t) (iblk2 V c 6 t) (iblk2 V c 7 t) hc0 hc1).2.2 _ Set.univ _)
    iframe H0 H1 H2 H3 H4 H5 H6 H7 H8 HS0
    iintro ⟨H0, H1, H2, H3, H4, H5, H6, H7, H8, ⟨%es0, HS0⟩⟩
    iframe Hrest Hg Ho H0 H1 H2 H3 H4 H5 H6 H7
    isplitl [HS0]
    · unfold owns; iexists _; isplitr
      swap; · iexact HS0
      ipureintro; exact acc2_A c (grid2.coords t) (tiles2 t) (iblk2 V c 0 t) (iblk2 V c 1 t) (iblk2 V c 2 t) (iblk2 V c 3 t) (iblk2 V c 4 t) (iblk2 V c 5 t) (iblk2 V c 6 t) (iblk2 V c 7 t) hc0 hc1 _
    iexists _; iexact H8
  · have hc0 : ¬cond2_0 (grid2.coords t) := fun h => h0 ((hcond2_0 t).mp h)
    rw [PhiS2_pos V c _ _ h0, accAt2_next V c t h0]
    by_cases h1 : t.val = 9
    · have hc1 := (hcond2_1 t).mpr h1
      rw [show (dat2 V c).leavesExact 8 t = owns (c : Thread nD τ) (tiles2 t).a9 fullShare ((dat2 V c).after 8 t) from by
        unfold Dat.leavesExact; rw [liveAt2_8 t hc1], after2_8, accAt2_next V c t h0]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1).2.2 Set.univ _)
      iframe H0 H1 H2 H3 H4 H5 H6 H7 HS0
      isplitl [H8]; · iexists _; iexact H8
      iintro ⟨H0, H1, H2, H3, H4, H5, H6, H7, ⟨%e8, H8⟩, ⟨%es0, HS0⟩⟩
      iframe Hrest Hg Ho H0 H1 H2 H3 H4 H5 H6 H7
      isplitl [HS0]
      · unfold owns; iexists _; isplitr
        swap; · iexact HS0
        ipureintro; exact acc2_C c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1 _
      unfold owns; iexists _; isplitr
      swap; · iexact H8
      ipureintro; exact res2_C c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1 _
    · have hc1 : ¬cond2_1 (grid2.coords t) := fun h => h1 ((hcond2_1 t).mp h)
      rw [Dat.leavesExact_idle (dat2 V c) 8 t (idleAt2_8 t hc1).1 (idleAt2_8 t hc1).2]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1).2.2 _ Set.univ _)
      iframe H0 H1 H2 H3 H4 H5 H6 H7 H8 HS0
      iintro ⟨H0, H1, H2, H3, H4, H5, H6, H7, H8, ⟨%es0, HS0⟩⟩
      iframe Hrest Hg Ho H0 H1 H2 H3 H4 H5 H6 H7
      isplitl [HS0]
      · unfold owns; iexists _; isplitr
        swap; · iexact HS0
        ipureintro; exact acc2_B c (grid2.coords t) (tiles2 t) (iblk2 V c 0 t) (iblk2 V c 1 t) (iblk2 V c 2 t) (iblk2 V c 3 t) (iblk2 V c 4 t) (iblk2 V c 5 t) (iblk2 V c 6 t) (iblk2 V c 7 t) _ hc0 hc1 _
      iexists _; iexact H8

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

-- After the last point the invariant gives the plain one back: the accumulator's contents are forgotten.
theorem hout2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c _ _ (by rw [show cfg2.N = 10 from N_2]; decide), PhiA2_eq]
  iintro ⟨⟨HS0, Hrest⟩, Hg⟩
  iframe Hrest Hg
  iexists _; iexact HS0

end Region2

end Cert.KernelIdeal.Fr

end
-- ==== Proof.KI.Run.lean ====
import proofs.«408972_j53575422050753_2_alg».proof.Proof.KI.Reg0
import proofs.«408972_j53575422050753_2_alg».proof.Proof.KI.Reg1
import proofs.«408972_j53575422050753_2_alg».proof.Proof.KI.Reg2
import proofs.«408972_j53575422050753_2_alg».proof.Proof.Gen.KernelIdeal.Regions
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

noncomputable section

namespace Cert.KernelIdeal.Fr

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) :=
  fun c b => m ((c : Dev nD), b)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A launch changes its output array `o` only: an input window's array keeps its entry contents, any other reference is none of its arrays. -/
theorem keep_of {cfg : Pipeline.Cfg sig Λ₀} (hinj : Function.Injective (Pipeline.arrRef cfg.spec)) (c : Dev nD)
    (Vi : Valuation τ sig (Elt F)) (d : Dat τ (Elt F) Unit ℕ (UR sig nD τ) ℕ cfg c)
    (hA : ∀ w, d.A w = Vi (Proc.devRef .tc (Pipeline.arrRef cfg.spec w))) (o b : Ref sig .tc)
    (ho : ∀ w, Pipeline.arrRef cfg.spec w ≠ o → (cfg.win w).isOut = false) (hb : b ≠ o) :
    Pipeline.withArrays cfg.spec c Vi (fun w => d.arrAt w cfg.N) (Proc.devRef .tc b) = Vi (Proc.devRef .tc b) := by
  by_cases h : ∃ w, Pipeline.arrRef cfg.spec w = b
  · obtain ⟨w, rfl⟩ := h
    exact (Pipeline.withArrays_arr _ hinj c _ _ w).trans ((d.arrAt_in w (ho w hb) _).trans (hA w))
  · exact Pipeline.withArrays_of_ne _ c _ _ b fun w e => h ⟨w, e⟩

section Region

variable (pd : (p : Fin 3) → (c : Dev nD) → Dat τ (Elt F) Unit ℕ (UR sig nD τ) ℕ (Pipeline.pin (pcfgs (F := F)) adm p) c)

/-- A launch's exit contents: the entry contents with each of its arrays at its final contents. -/
abbrev exitOf (p : Fin 3) (Vi : Dev nD → Valuation τ sig (Elt F)) (c : Dev nD) : Valuation τ sig (Elt F) :=
  Pipeline.withArrays (cfgs p).spec c (Vi c) fun w => (pd p c).arrAt w (cfgs p).N

set_option backward.isDefEq.respectTransparency.types false in
/-- Launch `p` as a segment from the contents `Vi` to `exitOf`. -/
def regOf (p : Fin 3) (lf : Pipeline.LaunchFacts (nD := nD) (τ := τ) cfgs p) (Vi : Dev nD → Valuation τ sig (Elt F))
    (hb : ∀ c, Pipeline.BodyObligationLoose (pd p c) defs₀ 𝒱₀ () Set.univ)
    (hq : ∀ c w, (pd p c).q w = fullShare)
    (hA : ∀ c w, (pd p c).A w = Vi c (Proc.devRef .tc (Pipeline.arrRef (cfgs p).spec w)))
    (how : ∀ c t, (pd p c).owed t = 0) (hrec : ∀ c x, x ∈ (pd p c).recorded 0)
    (hΦi : ∀ c, Pipeline.ΦA (cfgs p).spec c ⊢ (pd p c).Φ 0)
    (hΦo : ∀ c, (pd p c).Φ (Fin.last (cfgs p).N) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p how
  pre c := iprop(StableHlo.held (c : Thread nD τ) (Pipeline.ucRefs τ sig) (Vi c) ∗ R c)
  post c := iprop(StableHlo.held (c : Thread nD τ) (Pipeline.ucRefs τ sig) (exitOf pd p Vi c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c (Proc.devRef .tc b)
  hentry c := by
    rw [Pipeline.ownSems0_none]
    have hsplit := Pipeline.arrays_of_unscopedBufs (p := p) (pcfgs (F := F)) adm pd lf.win lf.arr_whole c
      ((pd p c).share_full (hq c)) (fun b => Vi c (Proc.devRef .tc b)) (hA c)
    rw [Pipeline.unscopedBufs_held] at hsplit
    unfold Pipeline.Dat.owesAt Pipeline.owesWithin Pipeline.prefHeld
    rw [how, show (Finset.univ : Finset (Fin 0)) = ∅ from rfl, BI.bigSep_empty]
    iintro ⟨⟨Hub, Hp, %W, HO⟩, -, -⟩
    ihave H := hsplit $$ Hub
    icases H with ⟨Ha, Hrest⟩
    imodintro
    iframe Ha Hp Hrest
    isplitr; · iempintro
    iexists W; iframe HO
    ipureintro; exact fun x _ => Or.inl (hrec c x)
  hin c := by
    refine .trans ?_ (hΦi c); unfold Pipeline.ΦA
    iintro ⟨Hp, -, Hr⟩
    iframe
  hout c := by
    refine (hΦo c).trans ?_; rw [Pipeline.ownSems0_none]; unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => Vi c (Proc.devRef .tc b))
      (fun b => exitOf pd p Vi c (Proc.devRef .tc b)) ((pd p c).arrAt · (cfgs p).N)
      (fun w => (Pipeline.withArrays_arr (cfgs p).spec lf.win.arr_inj c (Vi c) (fun w => (pd p c).arrAt w (cfgs p).N) w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin R; rw [how]
    iintro ⟨Ha, ⟨%W, -, HO⟩, HY, Hrest⟩
    imodintro
    isplitl [Ha Hrest]
    · iapply hjoin; iframe
    iframe HY
    iexists W; iexact HO

end Region

variable (m : (ℓ : Loc nD τ sig) → Buf (Elt F) ℓ) (ρ : Dev nD → PrngReg)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

def reg0 : Pipeline.RegionSeg (pcfgs (F := F)) adm (pdats m ρ) () defs₀ 𝒱₀ L lv 0 :=
  regOf (pdats m ρ) 0 launch0 (W1 m ρ) (fun c => (body_obligation0 (V1 m ρ) c).loose) (fun _ _ => rfl) (A_eq0 (V1 m ρ))
    (fun _ _ => rfl) (fun _ _ => trivial) (fun _ => .rfl) fun _ => .rfl
def reg1 : Pipeline.RegionSeg (pcfgs (F := F)) adm (pdats m ρ) () defs₀ 𝒱₀ L lv 1 :=
  regOf (pdats m ρ) 1 launch1 (W3 m ρ) (fun c => (body_obligation1 (V3 m ρ) c).loose) (fun _ _ => rfl) (A_eq1 (V3 m ρ))
    (fun _ _ => rfl) (fun _ _ => trivial) (fun _ => .rfl) fun _ => .rfl
def reg2 : Pipeline.RegionSeg (pcfgs (F := F)) adm (pdats m ρ) () defs₀ 𝒱₀ L lv 2 :=
  regOf (pdats m ρ) 2 launch2 (W5 m ρ) (fun c => (body_obligation2 (V5 m ρ) c).loose) (fun _ _ => rfl) (A_eq2 (V5 m ρ))
    (fun _ _ => rfl) (fun _ _ => trivial) (hin2 (V5 m ρ)) (hout2 (V5 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

set_option backward.isDefEq.respectTransparency.types false in
/-- Every weakly fair execution of the program terminates without a fault and ends with every buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      iframe)
    (hQ := fun s h => h)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

theorem W2_keep (c : Dev nD) (b : Ref sig .tc) (hb : b ≠ main_v34) :
    W2 m ρ c (Proc.devRef .tc b) = W1 m ρ c (Proc.devRef .tc b) :=
  keep_of launch0.win.arr_inj c _ (dat0 (V1 m ρ) c) (A_eq0 (V1 m ρ) c) main_v34 b (by decide) hb
theorem W4_keep (c : Dev nD) (b : Ref sig .tc) (hb : b ≠ main_v50) :
    W4 m ρ c (Proc.devRef .tc b) = W3 m ρ c (Proc.devRef .tc b) :=
  keep_of launch1.win.arr_inj c _ (dat1 (V3 m ρ) c) (A_eq1 (V3 m ρ) c) main_v50 b (by decide) hb
theorem W6_keep (c : Dev nD) (b : Ref sig .tc) (hb : b ≠ main_v79) :
    W6 m ρ c (Proc.devRef .tc b) = W5 m ρ c (Proc.devRef .tc b) :=
  keep_of launch2.win.arr_inj c _ (dat2 (V5 m ρ) c) (A_eq2 (V5 m ρ) c) main_v79 b (by decide) hb

theorem W2_main_v34 (c : Dev nD) : W2 m ρ c (Proc.devRef .tc main_v34) = (dat0 (V1 m ρ) c).arrAt 4 cfg0.N :=
  Pipeline.withArrays_arr spec0 launch0.win.arr_inj c _ _ 4
theorem W4_main_v50 (c : Dev nD) : W4 m ρ c (Proc.devRef .tc main_v50) = (dat1 (V3 m ρ) c).arrAt 4 cfg1.N :=
  Pipeline.withArrays_arr spec1 launch1.win.arr_inj c _ _ 4
theorem W6_main_v79 (c : Dev nD) : W6 m ρ c (Proc.devRef .tc main_v79) = (dat2 (V5 m ρ) c).arrAt 8 cfg2.N :=
  Pipeline.withArrays_arr spec2 launch2.win.arr_inj c _ _ 8

/-- A reference no host stretch writes and that is no launch's output array ends as launched. -/
theorem W6_untouched (c : Dev nD) (r : Ref sig .tc) (h0 : r ∉ hostOps0_W) (h1 : r ∉ hostOps1_W) (h2 : r ∉ hostOps2_W)
    (ha : r ≠ main_v34) (hb : r ≠ main_v50) (hc : r ≠ main_v79) :
    W6 m ρ c (Proc.devRef .tc r) = m ((c : Thread nD τ).loc r) :=
  (W6_keep m ρ c r hc).trans <| (W5_of m ρ c r h2).trans <| (W4_keep m ρ c r hb).trans <| (W3_of m ρ c r h1).trans <|
    (W2_keep m ρ c r ha).trans <| (W1_of m ρ c r h0).trans rfl

end Cert.KernelIdeal.Fr

end
-- ==== Proof.KI.Frame.lean ====
import proofs.«408972_j53575422050753_2_alg».proof.Proof.KI.Run

noncomputable section

namespace Cert.KernelIdeal.Fr

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The argument arrays: written by no host stretch, no launch's output array. -/
abbrev args : List (Ref sig .tc) :=
  [main_arg0, main_arg1, main_arg2, main_arg3, main_arg4, main_arg5, main_arg6, main_arg7, main_arg8, main_arg9, main_arg10]

/-- Every weakly fair execution from `m` terminates without a fault, the result buffer at the last boundary's contents and every argument array as launched. -/
theorem run_result : θ_run defs (onTc (τ := τ) (main (F := F))) ⟨m, fun _ => 0, ρ⟩ (fun r => ∀ c : Dev nD,
      r.2.mem ((c.tc : Thread nD τ).loc main_v79) = W6 m ρ c (Proc.devRef .tc main_v79)
      ∧ args.Forall fun a => r.2.mem ((c.tc : Thread nD τ).loc a) = m ((c.tc : Thread nD τ).loc a)) :=
  have ha : ∀ a ∈ args, ¬ (Proc.devRef .tc a : DevRef τ sig).isScoped ∧ a ∉ hostOps0_W ∧ a ∉ hostOps1_W ∧ a ∉ hostOps2_W
      ∧ a ≠ main_v34 ∧ a ≠ main_v50 ∧ a ≠ main_v79 := by decide
  (θ_run defs _ _).mono (fun r h c => ⟨h c _ (mem_uc main_v79 (by decide)), List.forall_iff_forall_mem.mpr fun a h' =>
    have ⟨hs, h0, h1, h2, h3, h4, h5⟩ := ha a h'
    (h c _ (mem_uc a hs)).trans (W6_untouched m ρ c a h0 h1 h2 h3 h4 h5)⟩) (run_all m ρ)

theorem frame : θ_run defs (onTc (τ := τ) (main (F := F))) ⟨m, fun _ => 0, ρ⟩ (fun r => ∀ c : Dev nD,
      args.Forall fun a => r.2.mem ((c.tc : Thread nD τ).loc a) = m ((c.tc : Thread nD τ).loc a)) :=
  (θ_run defs _ _).mono (fun r h c => (h c).2) (run_result m ρ)

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

-- The clipping threshold: zero.
abbrev z : EReal := Ideal.ofBits .f32 0x00000000#32

-- A layer at node n, feature d: the messages scaled by the in-degree norm, through weights and bias, clipped at zero.
def act1 (a : (⟨2, ![50000, 1]⟩ : Shape).Idx → EReal) (nd : Fin 50000 → EReal)
    (w : (⟨2, ![1, 64]⟩ : Shape).Idx → EReal) (b : Fin 64 → EReal) (n : Fin 50000) (d : Fin 64) : EReal :=
  max ((∑ k : Fin 1, (a (ix2 n k) * nd n) * w (ix2 k d)) + b d) z

def act64 (a : (⟨2, ![50000, 64]⟩ : Shape).Idx → EReal) (nd : Fin 50000 → EReal)
    (w : (⟨2, ![64, 64]⟩ : Shape).Idx → EReal) (b : Fin 64 → EReal) (n : Fin 50000) (d : Fin 64) : EReal :=
  max ((∑ k : Fin 64, (a (ix2 n k) * nd n) * w (ix2 k d)) + b d) z

-- The read-out for graph g: the membership-weighted sum of the rows over the graph's node count, through the head.
def pooled (y : Fin 50000 → Fin 64 → EReal) (oh : Fin 50000 → Fin 64 → EReal) (cnt : Fin 64 → EReal)
    (wr : Fin 64 → EReal) (br : EReal) (g : Fin 64) : EReal :=
  (∑ d : Fin 64, Ideal.div (∑ n : Fin 50000, oh n g * y n d) (cnt g) * wr d) + br

end Cert.Spec

end
-- ==== Proof.KI.Dense.lean ====
import proofs.«408972_j53575422050753_2_alg».proof.Proof.Spec
import Idealize.ShloMosaic.Lib.ValueIdx
import Idealize.ShloMosaic.Lib.ValueLayout
import Idealize.ShloMosaic.Lib.StackMember
import Idealize.ShloMosaic.Lib.KernelVsHost
import Idealize.ShloMosaic.Lib.Pipeline.Value

noncomputable section

namespace Cert.KernelIdeal.Fr

open Idealize.ShloMosaic Idealize.ShloMosaic.ValueIdx
open scoped BigOperators

variable {α : Type} {M M' K a b : Nat}

-- One column laid along every column: the entry at `(p, c)` is the column's entry at row `p`.
theorem col_bcast_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => match ax with
    | ⟨0, _⟩ => by
      show p.val = if a = 1 then 0 else p.val
      split
      · have := p.isLt; omega
      · rfl
    | ⟨1, _⟩ => (if_pos rfl).symm

-- A product into a zero accumulator is the sum over the contracted axis, whenever the dimension record is the plain one.
theorem matmul_plain_zero_apply {φ₁ φ₂ : FTy} (D : DotDims ⟨2, ![M, K]⟩ ⟨2, ![K, b]⟩ ⟨2, ![M, b]⟩) (hD : D = DotDims.plain M K b)
    (l : FVec Ideal ⟨2, ![M, K]⟩ φ₁) (w : FVec Ideal ⟨2, ![K, b]⟩ φ₂) (r : Fin M) (d : Fin b) :
    matmul D none l w (constant (F := Ideal) ⟨2, ![M, b]⟩ .f32 0x00000000#32) (ix2 r d) = ∑ k : Fin K, l (ix2 r k) * w (ix2 k d) := by
  subst hD
  exact (congrFun (matmul_zero_eq_dotGeneral _ none l w) _).trans (StackMember.dotGeneral_plain_apply none l w r d)

-- A dense layer on `M` rows of `K` features: the rows scaled by column 0 of `nn` on the way in and by column 1 on the way out.
def dense (x : (⟨2, ![M, K]⟩ : Shape).Idx → EReal) (nn : (⟨2, ![M, 2]⟩ : Shape).Idx → EReal)
    (w : (⟨2, ![K, 64]⟩ : Shape).Idx → EReal) (bias : (⟨2, ![1, 64]⟩ : Shape).Idx → EReal) : (⟨2, ![M, 64]⟩ : Shape).Idx → EReal :=
  fun j => max ((∑ k : Fin K, (x (ix2 (j 0) k) * nn (ix2 (j 0) 0)) * w (ix2 k (j 1))) + bias (ix2 0 (j 1))) Cert.Spec.z * nn (ix2 (j 0) 1)

theorem dense_ix2 (x : (⟨2, ![M, K]⟩ : Shape).Idx → EReal) (nn : (⟨2, ![M, 2]⟩ : Shape).Idx → EReal)
    (w : (⟨2, ![K, 64]⟩ : Shape).Idx → EReal) (bias : (⟨2, ![1, 64]⟩ : Shape).Idx → EReal) (r : Fin M) (d : Fin 64) :
    dense x nn w bias (ix2 r d)
      = max ((∑ k : Fin K, (x (ix2 r k) * nn (ix2 r 0)) * w (ix2 k d)) + bias (ix2 0 d)) Cert.Spec.z * nn (ix2 r 1) := rfl

theorem zero_zero : (![0, 0] : Fin 2 → Nat) = fun _ => 0 := funext fun a => by fin_cases a <;> rfl

-- What `dense_tile` and `rowTile_cover` ask of five index maps at point `t`: the first two and the last share a row index, which is `t`; every other entry is zero.
abbrev RowTiled (i0 i1 i2 i3 i4 : Fin 2 → Nat) (t : Nat) : Prop :=
  (i4 0 = t ∧ i4 1 = 0) ∧ i0 0 = i4 0 ∧ i0 1 = 0 ∧ i1 0 = i4 0 ∧ i1 1 = 0 ∧ i2 0 = 0 ∧ i2 1 = 0 ∧ i3 0 = 0 ∧ i3 1 = 0

-- How a block at block index `ix` sits in its array: on each axis at the index times the block's size plus the coordinate.
abbrev Sits {n0 n1 m0 m1 : Nat} (ix : Fin 2 → Nat) (e : (⟨2, ![n0, n1]⟩ : Shape).Idx → (⟨2, ![m0, m1]⟩ : Shape).Idx) : Prop :=
  ∀ y a, (e y a).val = ix a * ![n0, n1] a + 1 * (y a).val

-- A block at index zero on both axes is read in place.
theorem Sits.whole {n0 n1 : Nat} {ix : Fin 2 → Nat} {e : (⟨2, ![n0, n1]⟩ : Shape).Idx → (⟨2, ![n0, n1]⟩ : Shape).Idx}
    (h : Sits ix e) (z0 : ix 0 = 0) (z1 : ix 1 = 0) (x : (⟨2, ![n0, n1]⟩ : Shape).Idx) : e x = x :=
  Shape.idx_ext₂ (by rw [h, z0]; omega) (by rw [h, z1]; omega)

-- Two row tiles at the same row index read the same row of their arrays, column by column.
theorem Sits.row {n0 n1 n1' m0 : Nat} {ix ix' : Fin 2 → Nat} {e : (⟨2, ![n0, n1]⟩ : Shape).Idx → (⟨2, ![m0, n1]⟩ : Shape).Idx}
    {e' : (⟨2, ![n0, n1']⟩ : Shape).Idx → (⟨2, ![m0, n1']⟩ : Shape).Idx} (h : Sits ix e) (h' : Sits ix' e')
    (hr : ix 0 = ix' 0) (z1 : ix 1 = 0) (y : (⟨2, ![n0, n1']⟩ : Shape).Idx) (k : Fin n1) : e (ix2 (y 0) k) = ix2 (e' y 0) k :=
  Shape.idx_ext₂ (show (e (ix2 (y 0) k) 0).val = (e' y 0).val by rw [h, h', hr]; rfl)
    (show (e (ix2 (y 0) k) 1).val = k.val by rw [h, z1]; show 0 * n1 + 1 * k.val = k.val; omega)

-- A row of the layer reads that row of the inputs and nothing else, so a row tile of the inputs gives the row tile of the layer.
theorem dense_tile {i0 i1 i2 i3 i4 : Fin 2 → Nat} {T : Nat} (hI : RowTiled i0 i1 i2 i3 i4 T)
    (A0 : (⟨2, ![M', K]⟩ : Shape).Idx → EReal) (A1 : (⟨2, ![M', 2]⟩ : Shape).Idx → EReal)
    (A2 : (⟨2, ![K, 64]⟩ : Shape).Idx → EReal) (A3 : (⟨2, ![1, 64]⟩ : Shape).Idx → EReal)
    {e0 : (⟨2, ![M, K]⟩ : Shape).Idx → (⟨2, ![M', K]⟩ : Shape).Idx} {e1 : (⟨2, ![M, 2]⟩ : Shape).Idx → (⟨2, ![M', 2]⟩ : Shape).Idx}
    {e2 : (⟨2, ![K, 64]⟩ : Shape).Idx → (⟨2, ![K, 64]⟩ : Shape).Idx} {e3 : (⟨2, ![1, 64]⟩ : Shape).Idx → (⟨2, ![1, 64]⟩ : Shape).Idx}
    {e4 : (⟨2, ![M, 64]⟩ : Shape).Idx → (⟨2, ![M', 64]⟩ : Shape).Idx}
    (h0 : Sits i0 e0) (h1 : Sits i1 e1) (h2 : Sits i2 e2) (h3 : Sits i3 e3) (h4 : Sits i4 e4) (y : (⟨2, ![M, 64]⟩ : Shape).Idx) :
    dense (fun x => A0 (e0 x)) (fun x => A1 (e1 x)) (fun x => A2 (e2 x)) (fun x => A3 (e3 x)) y = dense A0 A1 A2 A3 (e4 y) := by
  obtain ⟨⟨-, e41⟩, e00, e01, e10, e11, e20, e21, e30, e31⟩ := hI
  have c4 : e4 y 1 = y 1 := Fin.ext (by rw [h4, e41]; show 0 * 64 + 1 * (y 1).val = (y 1).val; omega)
  unfold dense
  simp only [h0.row h4 e00 e01, h1.row h4 e10 e11, h2.whole e20 e21, h3.whole e30 e31, c4]
  rfl

-- Row `r` lies in tile `r / M`: the `N` row tiles cover the `N * M` rows.
theorem rowTile_cover {N R n : Nat} (hR : R = N * M) (ix : Fin N → Fin 2 → Nat) (h : ∀ t, ix t 0 = t.val ∧ ix t 1 = 0)
    (i : (⟨2, ![R, n]⟩ : Shape).Idx) :
    ∃ t : Fin N, ∀ a, ix t a * ![M, n] a ≤ (i a).val ∧ (i a).val < ix t a * ![M, n] a + ![M, n] a := by
  have hi0 : (i 0).val < N * M := hR ▸ (i 0).isLt
  have hi1 : (i 1).val < n := (i 1).isLt
  have hM : 0 < M := Nat.pos_of_ne_zero fun e => by rw [e, Nat.mul_zero] at hi0; exact Nat.not_lt_zero _ hi0
  refine ⟨⟨(i 0).val / M, Nat.div_lt_of_lt_mul (by rwa [Nat.mul_comm] at hi0)⟩, Fin.forall_fin_two.2 ⟨?_, ?_⟩⟩
  · rw [(h _).1]; exact ⟨Nat.div_mul_le_self _ _, Nat.lt_div_mul_add hM⟩
  · rw [(h _).2]; show 0 * n ≤ (i 1).val ∧ (i 1).val < 0 * n + n; omega

end Cert.KernelIdeal.Fr

end
-- ==== Proof.KI.Val0.lean ====
import proofs.«408972_j53575422050753_2_alg».proof.Proof.KI.Reg0
import proofs.«408972_j53575422050753_2_alg».proof.Proof.KI.Dense

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

-- What the body leaves in the output tile is the dense layer of the input tiles: each layout step reads one operand entry, and a change of float format does nothing to a real.
theorem out0_eq (x0 : Vec Ideal S5000x1 .f32) (x1 : Vec Ideal S5000x2 .f32) (x2 x3 : Vec Ideal S1x64 .f32) :
    out0_4 (F := Ideal) x0 x1 x2 x3 = dense x0 x1 x2 x3 := by
  unfold out0_4
  rw [View.canon_unit_zero zero_zero]
  simp only [View.ld_unit_zero (S := S5000x1) zero_zero, View.ld_unit_zero (S := S5000x2) zero_zero, View.ld_unit_zero (S := S1x64) zero_zero]
  funext y
  obtain ⟨r, d, rfl⟩ : ∃ r d, y = ix2 r d := ⟨y 0, y 1, eq_ix2 y⟩
  unfold k0_pay1
  simp only [shapeCast_self]
  rw [dense_ix2, truncf_apply, mulf_apply, maximumf_apply, addf_apply, broadcast_apply,
    matmul_plain_zero_apply dot_S5000x1_S1x64_S5000x64_1_0_0_1_n_n rfl, broadcastTo_1b_ab_apply, col_bcast_apply,
    slice2_axis1_apply 1 _ _ r 0 1 rfl]
  refine congrArg (· * x1 (ix2 r 1)) (congrArg (max · Cert.Spec.z) (congrArg (· + x3 (ix2 0 d)) (Finset.sum_congr rfl fun k _ => ?_)))
  exact congrArg (fun u => x0 (ix2 r k) * u * x2 (ix2 k d)) (slice2_axis1_apply 0 x1 _ r k 0 (by have := k.isLt; omega))

theorem idx_facts0 : ∀ t : Fin cfg0.N,
    RowTiled (win0_0.index t) (win0_1.index t) (win0_2.index t) (win0_3.index t) (win0_4.index t) t.val :=
  (by decide +kernel : ∀ t : Fin grid0.N, _)

-- Tile `t` of the output is tile `t` of the dense layer of the input arrays, and the ten tiles cover the array.
theorem arrAt0_out (V : (c : Dev nD) → (b : Ref sig .tc) → Buf (Elt Ideal) ((c : Thread nD τ).loc b)) (c : Dev nD) :
    ((dat0 (F := Ideal) V c).arrAt 4 cfg0.N : S50000x64.Idx → EReal)
      = dense (V c main_v29) (V c main_v32) (V c main_arg3) (V c main_v33) := by
  refine (dat0 (F := Ideal) V c).arrAt_eq_of_cover 4 _ (fun t _ => ?_) fun i => ?_
  · show (cfg0.win 4).cut (grid0.coords t) ((dat0 (F := Ideal) V c).after 4 t) = _
    rw [after0_4, out0_eq]
    exact funext (dense_tile (idx_facts0 t) (V c main_v29) (V c main_v32) (V c main_arg3) (V c main_v33)
      (fun _ _ => rfl) (fun _ _ => rfl) (fun _ _ => rfl) (fun _ _ => rfl) (fun _ _ => rfl))
  · obtain ⟨t, ht⟩ := rowTile_cover (M := 5000) (by rw [N_0]) (fun t => win0_4.index t) (fun t => (idx_facts0 t).1) i
    refine ⟨t, flush0_4 t, ?_⟩
    show i ∈ ((View.whole main_v34).slice (win0_4.rect t)).set
    rw [View.set_slice_whole, Rect.mem_set_unit]
    exact ht

end Cert.KernelIdeal.Fr

end
-- ==== Proof.KI.Val1.lean ====
import proofs.«408972_j53575422050753_2_alg».proof.Proof.KI.Reg1
import proofs.«408972_j53575422050753_2_alg».proof.Proof.KI.Dense

noncomputable section

namespace Cert.KernelIdeal.Fr

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

-- What the body leaves in the output tile is the dense layer of the input tiles, the in-norm laid along the sixty-four input features before the product.
theorem out1_eq (x0 : Vec Ideal S5000x64 .f32) (x1 : Vec Ideal S5000x2 .f32) (x2 : Vec Ideal S64x64 .f32) (x3 : Vec Ideal S1x64 .f32) :
    out1_4 (F := Ideal) x0 x1 x2 x3 = dense x0 x1 x2 x3 := by
  unfold out1_4
  rw [View.canon_unit_zero zero_zero]
  simp only [View.ld_unit_zero (S := S5000x64) zero_zero, View.ld_unit_zero (S := S5000x2) zero_zero, View.ld_unit_zero (S := S64x64) zero_zero, View.ld_unit_zero (S := S1x64) zero_zero]
  funext y
  obtain ⟨r, d, rfl⟩ : ∃ r d, y = ix2 r d := ⟨y 0, y 1, eq_ix2 y⟩
  unfold k1_pay1
  simp only [shapeCast_self]
  rw [dense_ix2, truncf_apply, mulf_apply, maximumf_apply, addf_apply, broadcast_apply,
    matmul_plain_zero_apply dot_S5000x64_S64x64_S5000x64_1_0_0_1_n_n rfl, broadcastTo_1b_ab_apply, col_bcast_apply,
    slice2_axis1_apply 1 _ _ r 0 1 rfl]
  refine congrArg (· * x1 (ix2 r 1)) (congrArg (max · Cert.Spec.z) (congrArg (· + x3 (ix2 0 d)) (Finset.sum_congr rfl fun k _ => ?_)))
  exact congrArg (fun u => x0 (ix2 r k) * u * x2 (ix2 k d)) ((col_bcast_apply _ _ r k).trans (slice2_axis1_apply 0 x1 _ r 0 0 rfl))

theorem idx_facts1 : ∀ t : Fin cfg1.N,
    RowTiled (win1_0.index t) (win1_1.index t) (win1_2.index t) (win1_3.index t) (win1_4.index t) t.val :=
  (by decide +kernel : ∀ t : Fin grid1.N, _)

-- As for the first layer: tile `t` of the output is tile `t` of the dense layer of the input arrays, and the tiles cover.
theorem arrAt1_out (V : (c : Dev nD) → (b : Ref sig .tc) → Buf (Elt Ideal) ((c : Thread nD τ).loc b)) (c : Dev nD) :
    ((dat1 (F := Ideal) V c).arrAt 4 cfg1.N : S50000x64.Idx → EReal)
      = dense (V c main_v45) (V c main_v48) (V c main_arg5) (V c main_v49) := by
  refine (dat1 (F := Ideal) V c).arrAt_eq_of_cover 4 _ (fun t _ => ?_) fun i => ?_
  · show (cfg1.win 4).cut (grid1.coords t) ((dat1 (F := Ideal) V c).after 4 t) = _
    rw [after1_4, out1_eq]
    exact funext (dense_tile (idx_facts1 t) (V c main_v45) (V c main_v48) (V c main_arg5) (V c main_v49)
      (fun _ _ => rfl) (fun _ _ => rfl) (fun _ _ => rfl) (fun _ _ => rfl) (fun _ _ => rfl))
  · obtain ⟨t, ht⟩ := rowTile_cover (M := 5000) (by rw [N_1]) (fun t => win1_4.index t) (fun t => (idx_facts1 t).1) i
    refine ⟨t, flush1_4 t, ?_⟩
    show i ∈ ((View.whole main_v50).slice (win1_4.rect t)).set
    rw [View.set_slice_whole, Rect.mem_set_unit]
    exact ht

end Cert.KernelIdeal.Fr

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

noncomputable section

open scoped BigOperators

namespace Cert.Segment

open Idealize.ShloMosaic Idealize.ShloMosaic.ValueIdx
open Idealize.ShloMosaic.StableHlo.Predicate (ixP)

-- A coordinate of a rank-2 index, by whether the axis is the second.
private theorem ix2_val {n0 n1 : Nat} (a : Fin n0) (b : Fin n1) :
    ∀ X : Fin 2, ((ix2 a b) X).val = if X = 1 then b.val else a.val :=
  Fin.forall_fin_two.2 ⟨rfl, rfl⟩

-- An update lands on an operand index exactly when, on every axis, its start plus its window coordinate is that index's coordinate.
theorem resultIdx?_iff {s si u : Shape} (D : ScatterDims s si u) {w : Nat} (j : u.Idx) (ix : IVec si w) (i : s.Idx) :
    D.resultIdx? j ix = some i ↔ ∀ a, D.start j ix a + (D.window j a : ℤ) = ((i a).val : ℤ) := by
  unfold ScatterDims.resultIdx?
  by_cases h : ∀ a, 0 ≤ D.start j ix a + (D.window j a : ℤ) ∧ D.start j ix a + (D.window j a : ℤ) < s.size a
  · rw [dif_pos h, Option.some.injEq, funext_iff]
    exact forall_congr' fun a => by rw [Fin.ext_iff]; have := h a; show (_ : ℤ).toNat = _ ↔ _; omega
  · rw [dif_neg h]
    exact ⟨(fun e => nomatch e), fun H => absurd (fun a => by have := (i a).isLt; rw [H a]; omega) h⟩

variable {N C E w : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
  (idx : IVec ⟨2, ![E, 1]⟩ w) (e : Fin E) (k' : Fin C)
include huw hiw hsd hivd

-- Update (e, k') reads its one start component at row e of the column of start indices.
theorem siIdx_rows (c : Fin d.scatterDimsToOperandDims.length) : d.siIdx (ix2 e k') c = ixP e := by
  refine funext (Fin.forall_fin_two.2 ⟨?_, ?_⟩)
  · unfold ScatterDims.siIdx
    rw [dif_neg (by rw [hivd]; exact Nat.zero_ne_one)]
    unfold ScatterDims.siCoord
    have hu : ∀ X ∈ d.uScatter, X ≠ 1 := fun X hX => by
      have h2 := (List.mem_filter.1 hX).2
      rw [huw] at h2
      simpa using h2
    exact Fin.ext ((ix2_val e k' _).trans (if_neg (hu _ (List.getElem_mem _))))
  · unfold ScatterDims.siIdx
    rw [dif_pos (by rw [hivd]; rfl)]
    exact Fin.ext (Nat.lt_one_iff.1 (c.isLt.trans_eq (congrArg List.length hsd)))

-- Update (e, k') lands on row: the start index of e read signed, and on column k'.
theorem land : d.start (ix2 e k') idx 0 + (d.window (ix2 e k') 0 : ℤ) = (idx (ixP e)).toInt
    ∧ d.start (ix2 e k') idx 1 + (d.window (ix2 e k') 1 : ℤ) = k'.val := by
  have hall : ∀ X ∈ d.updateWindowDims, X = 1 := fun X hX => List.mem_singleton.1 (huw ▸ hX)
  have m0 : (0 : Fin 2) ∈ d.scatterDimsToOperandDims := by simp [hsd]
  have m1 : (1 : Fin 2) ∉ d.scatterDimsToOperandDims := by simp [hsd]
  have h0 : (0 : Fin 2) ∉ d.sKept := by simp [Shape.kept, hiw]
  have h1 : (1 : Fin 2) ∈ d.sKept := by simp [Shape.kept, hiw]
  unfold ScatterDims.start ScatterDims.window
  rw [dif_pos m0, dif_neg m1, dif_neg h0, dif_pos h1, siIdx_rows d huw hiw hsd hivd, ix2_val,
    if_pos (hall _ (List.getElem_mem _))]
  constructor <;> omega

-- Update (e, k') lands on (n, k) exactly when k' = k and the start index of row e, read signed, is n.
theorem resultIdx?_rows (n : Fin N) (k : Fin C) :
    d.resultIdx? (ix2 e k') idx = some (ix2 n k) ↔ k' = k ∧ (idx (ixP e)).toInt = (n.val : ℤ) := by
  obtain ⟨l0, l1⟩ := land d huw hiw hsd hivd idx e k'
  rw [resultIdx?_iff, Fin.forall_fin_two, l0, l1, and_comm]
  exact and_congr (by show ((k'.val : ℤ) = (k.val : ℤ)) ↔ _; rw [Nat.cast_inj, Fin.val_inj]) Iff.rfl

-- The scatter-add of whole rows at (n, k): the operand there plus the k-th entries of the update rows whose start index is n.
theorem hostScatterAdd_rows (x : (⟨2, ![N, C]⟩ : Shape).Idx → EReal) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  rw [Finset.sum_filter, Finset.sum_filter, sum_idx2]
  refine congrArg (x (ix2 n k) + ·) (Finset.sum_congr rfl fun e _ => ?_)
  simp only [resultIdx?_rows d huw hiw hsd hivd, ite_and, Finset.sum_ite_eq', Finset.mem_univ, if_true]

end Cert.Segment

end
-- ==== Proof.RefSide.lean ====
import proofs.«408972_j53575422050753_2_alg».proof.Proof.Gen.ReferenceIdeal.Run
import proofs.«408972_j53575422050753_2_alg».proof.Proof.Gen.ReferenceIdeal.Read
import proofs.«408972_j53575422050753_2_alg».proof.Proof.Spec
import proofs.«408972_j53575422050753_2_alg».proof.Proof.LibSegment

noncomputable section

namespace Cert.RefSide

open Cert.ReferenceIdeal Cert.ReferenceIdeal.Gen Cert.ReferenceIdeal.Read
open Idealize.ShloMosaic Idealize.ShloMosaic.ValueIdx Idealize.ShloMosaic.StableHlo
open scoped BigOperators

variable (x0 x1 : (⟨S800000, .i32⟩ : BufTy).Contents (Elt Ideal)) (x2 : (⟨S50000, .i32⟩ : BufTy).Contents (Elt Ideal))
  (x3 : (⟨S1x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))
  (x9 : (⟨S64x1, .f32⟩ : BufTy).Contents (Elt Ideal)) (x10 : (⟨S1, .f32⟩ : BufTy).Contents (Elt Ideal))

-- The first layer at a node and a feature, scaled by the node's out-degree norm: the product is the sum over the one input feature.
theorem R37 (j : S50000x64.Idx) :
    val_main_v37 (F := Ideal) x0 x1 x3 x4 j
      = Cert.Spec.act1 (val_main_v27 (F := Ideal) x0 x1) (fun n => val_main_v14 (F := Ideal) x1 (ix1 n)) x3
          (fun d => x4 (ix1 d)) (j 0) (j 1) * val_main_v10 (F := Ideal) x0 (ix1 (j 0)) := by
  obtain ⟨n, d, rfl⟩ : ∃ (n : Fin 50000) (d : Fin 64), j = ix2 n d := ⟨_, _, eq_ix2 j⟩
  rw [val_main_v37_apply, val_main_v34_apply, val_main_v33_apply, val_main_v30_apply, val_main_v32_apply,
    val_main_v31_apply, val_main_call0_v0_apply, val_main_call0_cst_apply, val_main_v36_apply, val_main_v35_apply,
    (show idx_main_v31 (idx_main_v32 (ix2 n d)) = ix1 d from eq_ix1 _),
    (show idx_main_v35 (idx_main_v36 (ix2 n d)) = ix1 n from eq_ix1 _),
    Ideal.mulf_def, Ideal.addf_def, Ideal.maximumf_def, Ideal.ofBits_def]
  refine congrArg (fun s => max (s + x4 (ix1 d)) Cert.Spec.z * val_main_v10 (F := Ideal) x0 (ix1 n))
    (Finset.sum_congr rfl fun k _ => ?_)
  rw [(show lidx_main_v30 (ix2 n d) k = ix2 n k from eq_ix2 _), (show ridx_main_v30 (ix2 n d) k = ix2 k d from eq_ix2 _),
    val_main_v29_apply, val_main_v28_apply, (show idx_main_v28 (ix2 n k) = ix1 n from eq_ix1 _), Ideal.mulf_def]

-- The second layer likewise, over the sixty-four input features.
theorem R58 (j : S50000x64.Idx) :
    val_main_v58 (F := Ideal) x0 x1 x3 x4 x5 x6 j
      = Cert.Spec.act64 (val_main_v47 (F := Ideal) x0 x1 x3 x4) (fun n => val_main_v14 (F := Ideal) x1 (ix1 n)) x5
          (fun d => x6 (ix1 d)) (j 0) (j 1) * val_main_v10 (F := Ideal) x0 (ix1 (j 0)) := by
  obtain ⟨n, d, rfl⟩ : ∃ (n : Fin 50000) (d : Fin 64), j = ix2 n d := ⟨_, _, eq_ix2 j⟩
  rw [val_main_v58_apply, val_main_v55_apply, val_main_v54_apply, val_main_v51_apply, val_main_v53_apply,
    val_main_v52_apply, val_main_call1_v0_apply, val_main_call1_cst_apply, val_main_v57_apply, val_main_v56_apply,
    (show idx_main_v52 (idx_main_v53 (ix2 n d)) = ix1 d from eq_ix1 _),
    (show idx_main_v56 (idx_main_v57 (ix2 n d)) = ix1 n from eq_ix1 _),
    Ideal.mulf_def, Ideal.addf_def, Ideal.maximumf_def, Ideal.ofBits_def]
  refine congrArg (fun s => max (s + x6 (ix1 d)) Cert.Spec.z * val_main_v10 (F := Ideal) x0 (ix1 n))
    (Finset.sum_congr rfl fun k _ => ?_)
  rw [(show lidx_main_v51 (ix2 n d) k = ix2 n k from eq_ix2 _), (show ridx_main_v51 (ix2 n d) k = ix2 k d from eq_ix2 _),
    val_main_v50_apply, val_main_v49_apply, val_main_v48_apply,
    (show idx_main_v48 (idx_main_v49 (ix2 n k)) = ix1 n from eq_ix1 _), Ideal.mulf_def]

-- The third layer at node n, feature d; it is not scaled again.
theorem R76_at (n : Fin 50000) (d : Fin 64) :
    val_main_v76 (F := Ideal) x0 x1 x3 x4 x5 x6 x7 x8 (ix2 n d)
      = Cert.Spec.act64 (val_main_v68 (F := Ideal) x0 x1 x3 x4 x5 x6) (fun n => val_main_v14 (F := Ideal) x1 (ix1 n)) x7
          (fun d => x8 (ix1 d)) n d := by
  rw [val_main_v76_apply, val_main_v75_apply, val_main_v72_apply, val_main_v74_apply,
    val_main_v73_apply, val_main_call2_v0_apply, val_main_call2_cst_apply,
    (show idx_main_v73 (idx_main_v74 (ix2 n d)) = ix1 d from eq_ix1 _), Ideal.addf_def, Ideal.maximumf_def, Ideal.ofBits_def]
  refine congrArg (fun s => max (s + x8 (ix1 d)) Cert.Spec.z) (Finset.sum_congr rfl fun k _ => ?_)
  rw [(show lidx_main_v72 (ix2 n d) k = ix2 n k from eq_ix2 _), (show ridx_main_v72 (ix2 n d) k = ix2 k d from eq_ix2 _),
    val_main_v71_apply, val_main_v70_apply, val_main_v69_apply,
    (show idx_main_v69 (idx_main_v70 (ix2 n k)) = ix1 n from eq_ix1 _), Ideal.mulf_def]

-- The per-graph sum of the last layer's rows at graph g, feature k: the membership-weighted sum over the nodes.
theorem v83_at (g : Fin 64) (k : Fin 64) :
    val_main_v83 (F := Ideal) x0 x1 x2 x3 x4 x5 x6 x7 x8 (ix2 g k)
      = ∑ n : Fin 50000, (if (x2 (ix1 n)).toInt = (g.val : Int) then (1 : EReal) else 0)
          * val_main_v76 (F := Ideal) x0 x1 x3 x4 x5 x6 x7 x8 (ix2 n k) := by
  unfold val_main_v83
  show Ideal.hostScatterAdd scatter_S64x64_S50000x1_S50000x64_1_0_0_1 (val_main_v81 (F := Ideal))
      (val_main_v82 (F := Ideal) x2) (val_main_v76 (F := Ideal) x0 x1 x3 x4 x5 x6 x7 x8) (ix2 g k) = _
  rw [Cert.Segment.hostScatterAdd_rows _ rfl rfl rfl rfl, val_main_v81_apply, val_main_cst_16_apply, Ideal.ofBits_def,
    Ideal.ofBits_zero_f32, zero_add, Finset.sum_filter]
  refine Finset.sum_congr rfl fun n _ => ?_
  rw [ite_mul, one_mul, zero_mul, val_main_v82_apply,
    (show idx_main_v82 (Idealize.ShloMosaic.StableHlo.Predicate.ixP n) = ix1 n from eq_ix1 _)]

-- The read-out at a graph: its mean row against the head's weights, plus the bias; a one-column index is (its row, 0).
theorem R92 (j : S64x1.Idx) :
    val_main_v92 (F := Ideal) x0 x1 x2 x3 x4 x5 x6 x7 x8 x9 x10 j
      = Cert.Spec.pooled (fun n d => val_main_v76 (F := Ideal) x0 x1 x3 x4 x5 x6 x7 x8 (ix2 n d))
          (fun n g => if (x2 (ix1 n)).toInt = (g.val : Int) then 1 else 0) (fun g => val_main_v85 (F := Ideal) x2 (ix1 g))
          (fun d => x9 (ix2 d 0)) (x10 (ix1 0)) (j 0) := by
  obtain ⟨g, rfl⟩ : ∃ g : Fin 64, j = ix2 g (0 : Fin 1) :=
    ⟨j 0, (eq_ix2 j).trans (congrArg (ix2 (j 0)) (Subsingleton.elim (α := Fin 1) (j 1) 0))⟩
  rw [val_main_v92_apply, val_main_v89_apply, val_main_v91_apply, val_main_v90_apply,
    (show idx_main_v90 (idx_main_v91 (ix2 g (0 : Fin 1))) = ix1 (0 : Fin 1) from eq_ix1 _), Ideal.addf_def]
  refine congrArg (· + x10 (ix1 (0 : Fin 1))) (Finset.sum_congr rfl fun k _ => ?_)
  rw [(show lidx_main_v89 (ix2 g (0 : Fin 1)) k = ix2 g k from eq_ix2 _),
    (show ridx_main_v89 (ix2 g (0 : Fin 1)) k = ix2 k (0 : Fin 1) from eq_ix2 _), val_main_v88_apply, Ideal.hostDivf_def,
    v83_at, val_main_v87_apply, val_main_v86_apply, (show idx_main_v86 (idx_main_v87 (ix2 g k)) = ix1 g from eq_ix1 _)]

end Cert.RefSide

end
-- ==== Proof.KI.Layers.lean ====
import proofs.«408972_j53575422050753_2_alg».proof.Proof.KI.Val0
import proofs.«408972_j53575422050753_2_alg».proof.Proof.KI.Val1
import proofs.«408972_j53575422050753_2_alg».proof.Proof.RefSide

noncomputable section

namespace Cert.KernelIdeal.Fr

open Idealize.ShloMosaic Idealize.ShloMosaic.TcCoe Idealize.ShloMosaic.ValueIdx
open Idealize.SL.Sem
open Cert.KernelIdeal Cert.KernelIdeal.Gen Cert.ReferenceIdeal.Read
open scoped BigOperators

variable (V : (c : Dev nD) → (b : Ref sig .tc) → Buf (Elt Ideal) ((c : Thread nD τ).loc b)) (c : Dev nD)
  (x0 x1 : (⟨Cert.ReferenceIdeal.S800000, .i32⟩ : BufTy).Contents (Elt Ideal)) (x2 : (⟨Cert.ReferenceIdeal.S50000, .i32⟩ : BufTy).Contents (Elt Ideal))
  (x3 : (⟨Cert.ReferenceIdeal.S1x64, .f32⟩ : BufTy).Contents (Elt Ideal)) (x4 : (⟨Cert.ReferenceIdeal.S64, .f32⟩ : BufTy).Contents (Elt Ideal))
  (x5 : (⟨Cert.ReferenceIdeal.S64x64, .f32⟩ : BufTy).Contents (Elt Ideal)) (x6 : (⟨Cert.ReferenceIdeal.S64, .f32⟩ : BufTy).Contents (Elt Ideal))
  (x7 : (⟨Cert.ReferenceIdeal.S64x64, .f32⟩ : BufTy).Contents (Elt Ideal)) (x8 : (⟨Cert.ReferenceIdeal.S64, .f32⟩ : BufTy).Contents (Elt Ideal))
  (x9 : (⟨Cert.ReferenceIdeal.S64x1, .f32⟩ : BufTy).Contents (Elt Ideal)) (x10 : (⟨Cert.ReferenceIdeal.S1, .f32⟩ : BufTy).Contents (Elt Ideal))

-- The first launch leaves the reference's first layer scaled by the out-degree norm, once the arrays it finds are the reference's.
theorem layer0 (h29 : (V c main_v29 : S50000x1.Idx → EReal) = val_main_v27 (F := Ideal) x0 x1)
    (h32a : ∀ n : Fin 50000, V c main_v32 (ix2 n 0) = val_main_v14 (F := Ideal) x1 (ix1 n))
    (h32b : ∀ n : Fin 50000, V c main_v32 (ix2 n 1) = val_main_v10 (F := Ideal) x0 (ix1 n))
    (h3 : (V c main_arg3 : S1x64.Idx → EReal) = x3)
    (h33 : ∀ d : Fin 64, V c main_v33 (ix2 0 d) = x4 (ix1 d)) :
    ((dat0 (F := Ideal) V c).arrAt 4 cfg0.N : S50000x64.Idx → EReal) = val_main_v37 (F := Ideal) x0 x1 x3 x4 := by
  rw [arrAt0_out V c, h29, h3]
  funext j
  unfold dense
  rw [Cert.RefSide.R37 x0 x1 x3 x4 j, h32a (j 0), h32b (j 0), h33 (j 1)]
  rfl

-- The second launch likewise leaves the reference's second layer.
theorem layer1 (h45 : (V c main_v45 : S50000x64.Idx → EReal) = val_main_v47 (F := Ideal) x0 x1 x3 x4)
    (h48a : ∀ n : Fin 50000, V c main_v48 (ix2 n 0) = val_main_v14 (F := Ideal) x1 (ix1 n))
    (h48b : ∀ n : Fin 50000, V c main_v48 (ix2 n 1) = val_main_v10 (F := Ideal) x0 (ix1 n))
    (h5 : (V c main_arg5 : S64x64.Idx → EReal) = x5)
    (h49 : ∀ d : Fin 64, V c main_v49 (ix2 0 d) = x6 (ix1 d)) :
    ((dat1 (F := Ideal) V c).arrAt 4 cfg1.N : S50000x64.Idx → EReal) = val_main_v58 (F := Ideal) x0 x1 x3 x4 x5 x6 := by
  rw [arrAt1_out V c, h45, h5]
  funext j
  unfold dense
  rw [Cert.RefSide.R58 x0 x1 x3 x4 x5 x6 j, h48a (j 0), h48b (j 0), h49 (j 1)]
  rfl

-- The third launch's output array, given as the read-out of the third layer of the arrays the launch finds, is the reference's read-out.
theorem layer2
    (A : S64x1.Idx → EReal)
    (harr : A = fun j => Cert.Spec.pooled
        (fun n d => Cert.Spec.act64 (V c main_v61) (fun n => V c main_v75 (ix2 n 0)) (V c main_arg7)
          (fun d => V c main_v76 (ix2 0 d)) n d)
        (fun n g => V c main_v68 (ix2 n g)) (fun g => V c main_v77 (ix2 g 0)) (fun d => V c main_arg9 (ix2 d 0))
        (V c main_v78 (ix2 0 0)) (j 0))
    (h61 : (V c main_v61 : S50000x64.Idx → EReal) = val_main_v68 (F := Ideal) x0 x1 x3 x4 x5 x6)
    (h75 : ∀ n : Fin 50000, V c main_v75 (ix2 n 0) = val_main_v14 (F := Ideal) x1 (ix1 n))
    (h7 : (V c main_arg7 : S64x64.Idx → EReal) = x7)
    (h76 : ∀ d : Fin 64, V c main_v76 (ix2 0 d) = x8 (ix1 d))
    (h68 : ∀ (n : Fin 50000) (g : Fin 64), V c main_v68 (ix2 n g) = (if (x2 (ix1 n)).toInt = (g.val : Int) then 1 else 0 : EReal))
    (h77 : ∀ g : Fin 64, V c main_v77 (ix2 g 0) = val_main_v85 (F := Ideal) x2 (ix1 g))
    (h9 : (V c main_arg9 : S64x1.Idx → EReal) = x9)
    (h78 : V c main_v78 (ix2 0 0) = x10 (ix1 0)) :
    A = val_main_v92 (F := Ideal) x0 x1 x2 x3 x4 x5 x6 x7 x8 x9 x10 := by
  rw [harr]
  refine funext fun (j : S64x1.Idx) => ?_
  have e68 : ((fun n g => V c main_v68 (ix2 n g)) : Fin 50000 → Fin 64 → EReal)
      = fun n g => (if (x2 (ix1 n)).toInt = (g.val : Int) then 1 else 0 : EReal) := funext fun n => funext fun g => h68 n g
  have e76 : (fun (n : Fin 50000) (d : Fin 64) =>
        Cert.Spec.act64 (val_main_v68 (F := Ideal) x0 x1 x3 x4 x5 x6)
          (fun n => val_main_v14 (F := Ideal) x1 (ix1 n)) x7 (fun d => x8 (ix1 d)) n d)
      = fun n d => val_main_v76 (F := Ideal) x0 x1 x3 x4 x5 x6 x7 x8 (ix2 n d) :=
    funext fun n => funext fun d => (Cert.RefSide.R76_at x0 x1 x3 x4 x5 x6 x7 x8 n d).symm
  rw [Cert.RefSide.R92 x0 x1 x2 x3 x4 x5 x6 x7 x8 x9 x10 j, h61, h7, funext h75, funext h76, h9, h78, funext h77, e68, e76]

end Cert.KernelIdeal.Fr

end
-- ==== Proof.KHost.lean ====
import proofs.«408972_j53575422050753_2_alg».proof.Proof.Gen.KernelIdeal.Launch
import proofs.«408972_j53575422050753_2_alg».proof.Proof.Gen.ReferenceIdeal.Read
import Idealize.ShloMosaic.Lib.StableHlo.Run
import Idealize.ShloMosaic.Lib.Pipeline.Value
import Idealize.ShloMosaic.Lib.ValueLayout

noncomputable section

namespace Cert.KHost

open Idealize.ShloMosaic Idealize.ShloMosaic.TcCoe Idealize.SL.Sem Idealize.ShloMosaic.ValueIdx
open Cert.KernelIdeal Cert.KernelIdeal.Gen
open Idealize.ShloMosaic.StableHlo (after_cons after_nil reshape_result_ne' binary_result')

-- Two one-column arrays set side by side: column 0 is the first, column 1 the second.
theorem concat_col0 (a b : S50000x1.Idx → EReal) (n : Fin 50000) :
    concatenate S50000x2 1 [⟨S50000x1, a⟩, ⟨S50000x1, b⟩] concatenates_S50000x1_S50000x1_S50000x2_d1 (ix2 n (0 : Fin 2))
      = a (ix2 n (0 : Fin 1)) :=
  concatenate_pair_apply_left (1 : Fin 2) a b concatenates_S50000x1_S50000x1_S50000x2_d1 (ix2 n (0 : Fin 2)) rfl (ix2 n (0 : Fin 1))
    (fun d => match d with | ⟨0, _⟩ => rfl | ⟨1, _⟩ => rfl)

theorem concat_col1 (a b : S50000x1.Idx → EReal) (n : Fin 50000) :
    concatenate S50000x2 1 [⟨S50000x1, a⟩, ⟨S50000x1, b⟩] concatenates_S50000x1_S50000x1_S50000x2_d1 (ix2 n (1 : Fin 2))
      = b (ix2 n (0 : Fin 1)) :=
  concatenate_pair_apply_right (1 : Fin 2) a b concatenates_S50000x1_S50000x1_S50000x2_d1 (ix2 n (1 : Fin 2)) rfl rfl (ix2 n (0 : Fin 1))
    (fun d => match d with | ⟨0, _⟩ => fun _ => rfl | ⟨1, _⟩ => fun h => absurd rfl h) rfl

-- A per-node vector as a one-column array.
theorem bcast_col (v : S50000.Idx → EReal) (n : Fin 50000) :
    broadcastInDim S50000x1 ![0] bcast_S50000_S50000x1_0 v (ix2 n (0 : Fin 1)) = v (ix1 n) :=
  broadcastInDim_apply _ bcast_S50000_S50000x1_0 v _ (ix1 n) (fun d => match d with
    | ⟨0, _⟩ => by show n.val = if (50000 : Nat) = 1 then 0 else n.val; rw [if_neg (by decide)])

-- The first stretch computes the reference's own stages: the aggregated first-layer messages, the two degree norms, the bias row.
theorem H0a (Vl : Valuation τ sig (Elt Ideal)) :
    StableHlo.after (hostOps0 (F := Ideal)) Vl (Proc.devRef .tc main_v29)
      = Cert.ReferenceIdeal.Read.val_main_v27 (F := Ideal) (Vl (Proc.devRef .tc main_arg0)) (Vl (Proc.devRef .tc main_arg1)) := by
  after_results_simp
  rfl

theorem H0d (Vl : Valuation τ sig (Elt Ideal)) :
    StableHlo.after (hostOps0 (F := Ideal)) Vl (Proc.devRef .tc main_v14)
      = Cert.ReferenceIdeal.Read.val_main_v14 (F := Ideal) (Vl (Proc.devRef .tc main_arg1)) := by
  after_results_simp
  rfl

theorem H0e (Vl : Valuation τ sig (Elt Ideal)) :
    StableHlo.after (hostOps0 (F := Ideal)) Vl (Proc.devRef .tc main_v10)
      = Cert.ReferenceIdeal.Read.val_main_v10 (F := Ideal) (Vl (Proc.devRef .tc main_arg0)) := by
  after_results_simp
  rfl

theorem H0b_in (Vl : Valuation τ sig (Elt Ideal)) (n : Fin 50000) :
    (StableHlo.after (hostOps0 (F := Ideal)) Vl (Proc.devRef .tc main_v32) : S50000x2.Idx → EReal) (ix2 n (0 : Fin 2))
      = Cert.ReferenceIdeal.Read.val_main_v14 (F := Ideal) (Vl (Proc.devRef .tc main_arg1)) (ix1 n) := by
  simp (disch := decide) only [after_cons, after_nil, reshape_result_ne', binary_result']
  rw [concat_col0]
  after_results_simp
  rw [bcast_col]
  rfl

theorem H0b_out (Vl : Valuation τ sig (Elt Ideal)) (n : Fin 50000) :
    (StableHlo.after (hostOps0 (F := Ideal)) Vl (Proc.devRef .tc main_v32) : S50000x2.Idx → EReal) (ix2 n (1 : Fin 2))
      = Cert.ReferenceIdeal.Read.val_main_v10 (F := Ideal) (Vl (Proc.devRef .tc main_arg0)) (ix1 n) := by
  simp (disch := decide) only [after_cons, after_nil, reshape_result_ne', binary_result']
  rw [concat_col1]
  after_results_simp
  rw [bcast_col]
  rfl

theorem H0c (Vl : Valuation τ sig (Elt Ideal)) (d : Fin 64) :
    (StableHlo.after (hostOps0 (F := Ideal)) Vl (Proc.devRef .tc main_v33) : S1x64.Idx → EReal) (ix2 (0 : Fin 1) d)
      = (Vl (Proc.devRef .tc main_arg4) : S64.Idx → EReal) (ix1 d) := by
  after_results_simp
  exact shapeCast_a_1a_apply _ _ 0 d

end Cert.KHost

end
-- ==== Proof.KHostAux.lean ====
import proofs.«408972_j53575422050753_2_alg».proof.Proof.Gen.KernelIdeal.Launch
import Idealize.ShloMosaic.Lib.StableHlo.Predicate
import Idealize.ShloMosaic.Lib.ValueIdx
import Idealize.ShloMosaic.Lib.Pipeline.Value
import Idealize.ShloMosaic.Lib.ValueLayout

noncomputable section

namespace Cert.KHost

open Idealize.ShloMosaic Idealize.ShloMosaic.TcCoe Idealize.SL.Sem Idealize.ShloMosaic.ValueIdx
open Idealize.ShloMosaic.StableHlo.Predicate
open Cert.KernelIdeal Cert.KernelIdeal.Gen

-- A 64-vector as a one-column array: row-major position g of both.
theorem col_of_vec (v : S64.Idx → EReal) (g : Fin 64) :
    shapeCast S64x1 v shapeCasts_S64_S64x1 (ix2 g (0 : Fin 1)) = v (ix1 g) :=
  shapeCast_apply v shapeCasts_S64_S64x1 _ _ (by
    rw [Shape.rowMajor_val_two, Shape.rowMajor_val_one]
    show g.val = g.val * 1 + 0
    omega)

-- The bit of an equality of two words, converted, is one where they are equal and zero elsewhere.
theorem eq_bit (a b : BitVec 32) :
    (FloatOps.uitofp (F := Ideal) .bf16 (IntOp.cmpi .eq a b) : EReal) = if a = b then 1 else 0 := by
  show (((IntOp.cmpi .eq a b).toNat : ℝ) : EReal) = _
  by_cases h : a = b <;> simp [IntOp.cmpi, h]

-- A word is a graph number's word exactly when it reads, signed, as the graph number: numbers below 64 read as themselves.
theorem word_eq_iff (w : BitVec 32) (g : Fin 64) : BitVec.ofNat 32 g.val = w ↔ w.toInt = (g.val : Int) :=
  have hg := toInt_ofNat_small g.val (by have := g.isLt; omega)
  ⟨fun h => h ▸ hg, fun h => BitVec.eq_of_toInt_eq (hg.trans h.symm)⟩

-- The membership table: entry (n, g) compares the graph number g with node n's graph word.
theorem member_apply' (x2 : S50000.Idx → BitVec 32) (n : Fin 50000) (g : Fin 64) :
    (uitofp .bf16 (cmpi .eq
        (broadcastInDim S50000x64 ![0, 1] bcast_S1x64_S50000x64_0_1
          (broadcastInDim S1x64 ![1] bcast_S64_S1x64_1 (iotaInDim S64 32 0)))
        (broadcastInDim S50000x64 ![0, 1] bcast_S50000x1_S50000x64_0_1
          (broadcastInDim S50000x1 ![0] bcast_S50000_S50000x1_0 x2))) : FVec Ideal S50000x64 .bf16) (ix2 n g)
      = if (x2 (ix1 n)).toInt = (g.val : Int) then (1 : EReal) else 0 := by
  show FloatOps.uitofp (F := Ideal) .bf16 (IntOp.cmpi .eq _ _) = _
  rw [← (show ij n g = ix2 n g from ij_eta (ix2 n g)), bcast_cols, bcast_rows, iota_apply, (show Shape.Idx.ofFin n = ix1 n from eq_ix1 _), eq_bit]
  exact if_congr (word_eq_iff _ g) rfl rfl

end Cert.KHost

end
-- ==== Proof.KHost1.lean ====
import proofs.«408972_j53575422050753_2_alg».proof.Proof.KHost

noncomputable section

namespace Cert.KHost

open Idealize.ShloMosaic Idealize.ShloMosaic.TcCoe Idealize.SL.Sem Idealize.ShloMosaic.ValueIdx
open Cert.KernelIdeal Cert.KernelIdeal.Gen
open Idealize.ShloMosaic.StableHlo (after_cons after_nil reshape_result_ne' binary_result')

-- The second stretch computes the reference's own stages: the aggregated second-layer messages, the two norms, the bias row.
theorem H1a (Vl : Valuation τ sig (Elt Ideal))
    (h : (Vl (Proc.devRef .tc main_v34) : S50000x64.Idx → EReal)
      = Cert.ReferenceIdeal.Read.val_main_v37 (F := Ideal) (Vl (Proc.devRef .tc main_arg0)) (Vl (Proc.devRef .tc main_arg1))
          (Vl (Proc.devRef .tc main_arg3)) (Vl (Proc.devRef .tc main_arg4))) :
    StableHlo.after (hostOps1 (F := Ideal)) Vl (Proc.devRef .tc main_v45)
      = Cert.ReferenceIdeal.Read.val_main_v47 (F := Ideal) (Vl (Proc.devRef .tc main_arg0)) (Vl (Proc.devRef .tc main_arg1))
          (Vl (Proc.devRef .tc main_arg3)) (Vl (Proc.devRef .tc main_arg4)) := by
  after_results_simp
  rw [h]
  rfl

theorem H1b (Vl : Valuation τ sig (Elt Ideal))
    (hv14 : Vl (Proc.devRef .tc main_v14) = Cert.ReferenceIdeal.Read.val_main_v14 (F := Ideal) (Vl (Proc.devRef .tc main_arg1)))
    (hv10 : Vl (Proc.devRef .tc main_v10) = Cert.ReferenceIdeal.Read.val_main_v10 (F := Ideal) (Vl (Proc.devRef .tc main_arg0)))
    (n : Fin 50000) :
    (StableHlo.after (hostOps1 (F := Ideal)) Vl (Proc.devRef .tc main_v48) : S50000x2.Idx → EReal) (ix2 n (0 : Fin 2))
        = Cert.ReferenceIdeal.Read.val_main_v14 (F := Ideal) (Vl (Proc.devRef .tc main_arg1)) (ix1 n)
    ∧ (StableHlo.after (hostOps1 (F := Ideal)) Vl (Proc.devRef .tc main_v48) : S50000x2.Idx → EReal) (ix2 n (1 : Fin 2))
        = Cert.ReferenceIdeal.Read.val_main_v10 (F := Ideal) (Vl (Proc.devRef .tc main_arg0)) (ix1 n) := by
  constructor
  · simp (disch := decide) only [after_cons, after_nil, reshape_result_ne', binary_result']
    rw [concat_col0]
    after_results_simp
    rw [bcast_col, hv14]
  · simp (disch := decide) only [after_cons, after_nil, reshape_result_ne', binary_result']
    rw [concat_col1]
    after_results_simp
    rw [bcast_col, hv10]

theorem H1c (Vl : Valuation τ sig (Elt Ideal)) (d : Fin 64) :
    (StableHlo.after (hostOps1 (F := Ideal)) Vl (Proc.devRef .tc main_v49) : S1x64.Idx → EReal) (ix2 (0 : Fin 1) d)
      = (Vl (Proc.devRef .tc main_arg6) : S64.Idx → EReal) (ix1 d) := by
  after_results_simp
  exact shapeCast_a_1a_apply _ _ 0 d

end Cert.KHost

end
-- ==== Proof.KHost2.lean ====
import proofs.«408972_j53575422050753_2_alg».proof.Proof.KHost
import proofs.«408972_j53575422050753_2_alg».proof.Proof.KHostAux

noncomputable section

namespace Cert.KHost

open Idealize.ShloMosaic Idealize.ShloMosaic.TcCoe Idealize.SL.Sem Idealize.ShloMosaic.ValueIdx
open Cert.KernelIdeal Cert.KernelIdeal.Gen
open Idealize.ShloMosaic.StableHlo (after_cons after_nil reshape_result_ne' binary_result')

-- The third stretch computes the reference's own stages; the small arrays are read through their changes of shape.
theorem H2a (Vl : Valuation τ sig (Elt Ideal))
    (h : (Vl (Proc.devRef .tc main_v50) : S50000x64.Idx → EReal)
      = Cert.ReferenceIdeal.Read.val_main_v58 (F := Ideal) (Vl (Proc.devRef .tc main_arg0)) (Vl (Proc.devRef .tc main_arg1))
          (Vl (Proc.devRef .tc main_arg3)) (Vl (Proc.devRef .tc main_arg4)) (Vl (Proc.devRef .tc main_arg5)) (Vl (Proc.devRef .tc main_arg6))) :
    StableHlo.after (hostOps2 (F := Ideal)) Vl (Proc.devRef .tc main_v61)
      = Cert.ReferenceIdeal.Read.val_main_v68 (F := Ideal) (Vl (Proc.devRef .tc main_arg0)) (Vl (Proc.devRef .tc main_arg1))
          (Vl (Proc.devRef .tc main_arg3)) (Vl (Proc.devRef .tc main_arg4)) (Vl (Proc.devRef .tc main_arg5)) (Vl (Proc.devRef .tc main_arg6)) := by
  after_results_simp
  rw [h]
  rfl

theorem H2b (Vl : Valuation τ sig (Elt Ideal)) (n : Fin 50000) (g : Fin 64) :
    (StableHlo.after (hostOps2 (F := Ideal)) Vl (Proc.devRef .tc main_v68) : S50000x64.Idx → EReal) (ix2 n g)
      = if ((Vl (Proc.devRef .tc main_arg2) : S50000.Idx → BitVec 32) (ix1 n)).toInt = (g.val : Int) then (1 : EReal) else 0 := by
  after_results_simp
  exact member_apply' _ n g

theorem H2c_nd (Vl : Valuation τ sig (Elt Ideal))
    (hv14 : Vl (Proc.devRef .tc main_v14) = Cert.ReferenceIdeal.Read.val_main_v14 (F := Ideal) (Vl (Proc.devRef .tc main_arg1)))
    (n : Fin 50000) :
    (StableHlo.after (hostOps2 (F := Ideal)) Vl (Proc.devRef .tc main_v75) : S50000x1.Idx → EReal) (ix2 n (0 : Fin 1))
      = Cert.ReferenceIdeal.Read.val_main_v14 (F := Ideal) (Vl (Proc.devRef .tc main_arg1)) (ix1 n) := by
  after_results_simp
  rw [bcast_col, hv14]

theorem H2c_bias (Vl : Valuation τ sig (Elt Ideal)) (d : Fin 64) :
    (StableHlo.after (hostOps2 (F := Ideal)) Vl (Proc.devRef .tc main_v76) : S1x64.Idx → EReal) (ix2 (0 : Fin 1) d)
      = (Vl (Proc.devRef .tc main_arg8) : S64.Idx → EReal) (ix1 d) := by
  after_results_simp
  exact shapeCast_a_1a_apply _ _ 0 d

theorem H2c_cnt (Vl : Valuation τ sig (Elt Ideal)) (g : Fin 64) :
    (StableHlo.after (hostOps2 (F := Ideal)) Vl (Proc.devRef .tc main_v77) : S64x1.Idx → EReal) (ix2 g (0 : Fin 1))
      = Cert.ReferenceIdeal.Read.val_main_v85 (F := Ideal) (Vl (Proc.devRef .tc main_arg2)) (ix1 g) := by
  after_results_simp
  refine (col_of_vec _ g).trans ?_
  rfl

theorem H2c_br (Vl : Valuation τ sig (Elt Ideal)) :
    (StableHlo.after (hostOps2 (F := Ideal)) Vl (Proc.devRef .tc main_v78) : S1x1.Idx → EReal) (ix2 (0 : Fin 1) (0 : Fin 1))
      = (Vl (Proc.devRef .tc main_arg10) : S1.Idx → EReal) (ix1 (0 : Fin 1)) := by
  after_results_simp
  exact shapeCast_a_1a_apply _ _ 0 0

end Cert.KHost

end
-- ==== Proof.KI.Pay2.lean ====
import proofs.«408972_j53575422050753_2_alg».proof.Proof.Gen.KernelIdeal.Skeleton
import proofs.«408972_j53575422050753_2_alg».proof.Proof.Spec
import proofs.«408972_j53575422050753_2_alg».proof.Proof.KI.Dense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Idealize.ShloMosaic Idealize.ShloMosaic.ValueIdx
open Cert.KernelIdeal Cert.KernelIdeal.Gen
open scoped BigOperators

-- A product into the zero accumulator, contracted over one axis: the sum over that axis of the operands' entries at L and R.
theorem matmul0_apply {sl sr so : Shape} {φ₁ φ₂ : FTy} (D : DotDims sl sr so) (n : Nat) (hr : D.contr.rank = 1)
    (hs : D.contr.size ⟨0, by omega⟩ = n) (l : FVec Ideal sl φ₁) (r : FVec Ideal sr φ₂) (j : so.Idx)
    (L : Fin n → sl.Idx) (R : Fin n → sr.Idx)
    (hl : ∀ q a, (D.lhsIdx j q a).val = (L (contrEquiv1 D n hr hs q) a).val)
    (hR : ∀ q a, (D.rhsIdx j q a).val = (R (contrEquiv1 D n hr hs q) a).val) :
    matmul D none l r (constant (F := Ideal) so .f32 0x00000000#32) j = ∑ k, l (L k) * r (R k) :=
  (Ideal.matmul_constant_zero_apply D none l r j).trans
    ((Finset.sum_congr rfl fun q _ => by
        rw [funext fun a => Fin.ext (hl q a), funext fun a => Fin.ext (hR q a)]).trans
      (Equiv.sum_comp (contrEquiv1 D n hr hs) fun k => l (L k) * r (R k)))

-- Entry (n, d) of the tile's rows times the weights: the sum over the 64 input features.
theorem rows_matmul_apply {φ₁ φ₂ : FTy} (l : FVec Ideal S5000x64 φ₁) (w : FVec Ideal S64x64 φ₂) (n : Fin 5000) (d : Fin 64) :
    matmul dot_S5000x64_S64x64_S5000x64_1_0_0_1_n_n none l w (constant (F := Ideal) S5000x64 .f32 0x00000000#32) (ix2 n d)
      = ∑ k : Fin 64, l (ix2 n k) * w (ix2 k d) :=
  matmul_plain_zero_apply _ rfl l w n d

-- Entry (g, d) of the membership tile transposed times the activations: the sum over the tile's 5000 rows.
theorem pool_matmul_apply {φ₁ φ₂ : FTy} (o : FVec Ideal S5000x64 φ₁) (y : FVec Ideal S5000x64 φ₂) (g d : Fin 64) :
    matmul dot_S5000x64_S5000x64_S64x64_0_0_1_1_n_n none o y (constant (F := Ideal) S64x64 .f32 0x00000000#32) (ix2 g d)
      = ∑ r : Fin 5000, o (ix2 r g) * y (ix2 r d) :=
  matmul0_apply _ 5000 rfl rfl o y _ (fun r => ix2 r g) (fun r => ix2 r d)
    (fun q => Fin.forall_fin_two.2 ⟨DotDims.lhsIdx_val_of_single _ rfl _ q,
      by unfold DotDims.lhsIdx; rw [dif_neg (by decide), dif_pos (by decide)]; rfl⟩)
    (fun q => Fin.forall_fin_two.2 ⟨DotDims.rhsIdx_val_of_single _ rfl _ q,
      by unfold DotDims.rhsIdx; rw [dif_neg (by decide), dif_pos (by decide)]; rfl⟩)

-- Entry (g, 0) of a 64 × 64 matrix times a column: the sum over the 64 features.
theorem head_matmul_apply {φ₁ φ₂ : FTy} (a : FVec Ideal S64x64 φ₁) (w : FVec Ideal S64x1 φ₂) (g : Fin 64) :
    matmul dot_S64x64_S64x1_S64x1_1_0_0_1_n_n none a w (constant (F := Ideal) S64x1 .f32 0x00000000#32) (ix2 g (0 : Fin 1))
      = ∑ d : Fin 64, a (ix2 g d) * w (ix2 d (0 : Fin 1)) :=
  matmul_plain_zero_apply _ rfl a w g 0

-- The last layer's activation of row r of a tile at feature d, from the tile's messages, norms, the weights and the bias row.
def tileAct (x0 : Vec Ideal S5000x64 .f32) (x1 : Vec Ideal S5000x1 .f32) (x2 : Vec Ideal S64x64 .f32)
    (x3 : Vec Ideal S1x64 .f32) (r : Fin 5000) (d : Fin 64) : EReal :=
  max ((∑ k : Fin 64, (x0 (ix2 r k) * x1 (ix2 r (0 : Fin 1))) * x2 (ix2 k d)) + x3 (ix2 (0 : Fin 1) d)) Cert.Spec.z

-- The clearing payload is zero at every entry.
theorem k2_pay1_apply (j : S64x64.Idx) : k2_pay1 (F := Ideal) j = 0 := by
  unfold k2_pay1
  simp only [shapeCast_self]
  exact Ideal.ofBits_zero_f32

-- The update payload at (g, d): what the accumulator held plus the tile's membership-weighted activations.
theorem k2_pay2_apply (x0 : Vec Ideal S5000x64 .f32) (x1 : Vec Ideal S5000x1 .f32) (x2 : Vec Ideal S64x64 .f32)
    (x3 : Vec Ideal S1x64 .f32) (x4 : Vec Ideal S5000x64 .bf16) (acc : Vec Ideal S64x64 .f32) (g d : Fin 64) :
    k2_pay2 (F := Ideal) x0 x1 x2 x3 x4 acc (ix2 g d)
      = acc (ix2 g d) + ∑ r : Fin 5000, x4 (ix2 r g) * tileAct x0 x1 x2 x3 r d := by
  unfold k2_pay2
  simp only [shapeCast_self]
  rw [addf_apply, pool_matmul_apply]
  refine congrArg (acc (ix2 g d) + ·) (Finset.sum_congr rfl fun r _ => ?_)
  refine congrArg (x4 (ix2 r g) * ·) ?_
  rw [truncf_apply, maximumf_apply, addf_apply, rows_matmul_apply, broadcast_apply, broadcastTo_1b_ab_apply]
  unfold tileAct
  refine congrArg (fun s => max (s + x3 (ix2 (0 : Fin 1) d)) Cert.Spec.z) (Finset.sum_congr rfl fun k _ => ?_)
  rw [truncf_apply, truncf_apply, mulf_apply, col_bcast_apply]

-- The head payload at (g, 0): row g of the accumulator over the graph's count, against the head's weights, plus its bias.
theorem k2_pay3_apply (acc : Vec Ideal S64x64 .f32) (cnt : Vec Ideal S64x1 .f32) (wr : Vec Ideal S64x1 .f32)
    (br : Vec Ideal S1x1 .f32) (g : Fin 64) :
    k2_pay3 (F := Ideal) acc cnt wr br (ix2 g (0 : Fin 1))
      = (∑ d : Fin 64, Ideal.div (acc (ix2 g d)) (cnt (ix2 g (0 : Fin 1))) * wr (ix2 d (0 : Fin 1))) + br (ix2 (0 : Fin 1) (0 : Fin 1)) := by
  unfold k2_pay3
  simp only [shapeCast_self]
  rw [addf_apply, head_matmul_apply, broadcastTo_1b_ab_apply]
  refine congrArg (· + br (ix2 (0 : Fin 1) (0 : Fin 1))) (Finset.sum_congr rfl fun d _ => ?_)
  rw [truncf_apply, truncf_apply, divf_apply, col_bcast_apply]

end Cert.KernelIdeal.Fr

end
-- ==== Proof.KI.Val2Flush.lean ====
import proofs.«408972_j53575422050753_2_alg».proof.Proof.KI.Reg2
import Idealize.ShloMosaic.Lib.Pipeline.Value

set_option maxRecDepth 16384

noncomputable section

namespace Cert.KernelIdeal.Fr

open Idealize.ShloMosaic Idealize.ShloMosaic.TcCoe
open Idealize.SL.Sem
open Idealize.ShloMosaic.Pipeline (Dat Cfg Window)
open Cert.KernelIdeal Cert.KernelIdeal.Gen

variable {F : FTy → Type} [FloatOps F]

theorem nine_lt_N2 : 9 < cfg2.N := by rw [show cfg2.N = 10 from N_2]; decide

theorem idx_facts2_8 : ∀ t : Fin cfg2.N, win2_8.index t (0 : Fin 2) = 0 ∧ win2_8.index t (1 : Fin 2) = 0 :=
  (by decide +kernel : ∀ t : Fin grid2.N, _)

section
variable (V : (c : Dev nD) → (b : Ref sig .tc) → Buf (Elt F) ((c : Thread nD τ).loc b))

theorem read_whole2_8 (X : Vec F S64x1 .f32) (t : Fin cfg2.N) :
    (cfg2.win 8).cut (grid2.coords t) X = ((cfg2.win 8).blk t).view.read (Elt F) X := by
  obtain ⟨e0, e1⟩ := idx_facts2_8 t
  funext j
  show X j = X (((cfg2.win 8).blk t).view.emb j)
  refine congrArg X (funext fun a => Fin.ext ?_)
  match a with
  | ⟨0, _⟩ => show (j 0).val = win2_8.index t (0 : Fin 2) * 64 + 1 * (j 0).val; omega
  | ⟨1, _⟩ => show (j 1).val = win2_8.index t (1 : Fin 2) * 1 + 1 * (j 1).val; omega

abbrev last2 (c : Dev nD) : Vec F S64x1 .f32 := (dat2 V c).after 8 ⟨9, nine_lt_N2⟩

theorem flushed2_last (c : Dev nD) (t : Fin cfg2.N) (hf : (cfg2.win 8).flush t = true) :
    (dat2 V c).flushed 8 t = ((cfg2.win 8).blk t).view.read (Elt F) (last2 V c) := by
  have h9 : t.val = 9 := by
    have h := (flush2_8 t).mp hf
    have hlt : t.val < 10 := lt_of_lt_of_eq t.isLt N_2
    omega
  obtain rfl : t = ⟨9, nine_lt_N2⟩ := Fin.ext h9
  exact read_whole2_8 _ _

theorem mem_blk2_8 (t : Fin cfg2.N) (i : S64x1.Idx) : i ∈ ((cfg2.win 8).blk t).view.set := by
  have hi0 : (i 0).val < 64 := (i 0).isLt
  have hi1 : (i 1).val < 1 := (i 1).isLt
  obtain ⟨e0, e1⟩ := idx_facts2_8 t
  show i ∈ ((View.whole main_v79).slice (win2_8.rect t)).set
  rw [View.set_slice_whole, Rect.mem_set_unit]
  intro a
  match a with
  | ⟨0, _⟩ => show win2_8.index t (0 : Fin 2) * 64 ≤ (i 0).val ∧ (i 0).val < win2_8.index t (0 : Fin 2) * 64 + 64; omega
  | ⟨1, _⟩ => show win2_8.index t (1 : Fin 2) * 1 ≤ (i 1).val ∧ (i 1).val < win2_8.index t (1 : Fin 2) * 1 + 1; omega

theorem cover2_last (i : S64x1.Idx) :
    ∃ t : Fin cfg2.N, (cfg2.win 8).flush t = true ∧ i ∈ ((cfg2.win 8).blk t).view.set :=
  ⟨⟨9, nine_lt_N2⟩, (flush2_8 ⟨9, nine_lt_N2⟩).mpr rfl, mem_blk2_8 ⟨9, nine_lt_N2⟩ i⟩

-- The result array after the launch is what the last point left in the result tile.
theorem arrAt2_last (c : Dev nD) : ((dat2 V c).arrAt 8 cfg2.N : S64x1.Idx → Elt F .f32) = last2 V c :=
  (dat2 V c).arrAt_eq_of_cover 8 (last2 V c) (flushed2_last V c) cover2_last

end

end Cert.KernelIdeal.Fr

end
-- ==== Proof.KI.Val2.lean ====
import proofs.«408972_j53575422050753_2_alg».proof.Proof.KI.Reg2
import proofs.«408972_j53575422050753_2_alg».proof.Proof.KI.Pay2
import proofs.«408972_j53575422050753_2_alg».proof.Proof.KI.Val2Flush
import Idealize.ShloMosaic.Lib.Pipeline.Value

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable {F : FTy → Type} [FloatOps F]

section Value
variable (V : (c : Dev nD) → (b : Ref sig .tc) → Buf (Elt Ideal) ((c : Thread nD τ).loc b))

abbrev xb4 (c : Dev nD) (t : Fin cfg2.N) : Vec Ideal S5000x64 .bf16 := iblk2 V c 4 t
abbrev e68 (c : Dev nD) (n : Fin 50000) (g : Fin 64) : EReal := V c main_v68 (ix2 n g)

-- Row r of tile s is node 5000 s + r.
def nodeOf (s : ℕ) (hs : s < 10) (r : Fin 5000) : Fin 50000 := ⟨s * 5000 + r.val, by have := r.isLt; omega⟩

theorem lt10 (t : Fin cfg2.N) : t.val < 10 := lt_of_lt_of_eq t.isLt (show cfg2.N = 10 from N_2)

-- The tile index of each input window: the node tiles follow the grid point, every other window is its whole array.
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

-- An array read at two indices with the same coordinates.
theorem read_at {s : Shape} {α : Type} (f : s.Idx → α) {i i' : s.Idx} (h : ∀ a, (i a).val = (i' a).val) : f i = f i' :=
  congrArg f (funext fun a => Fin.ext (h a))

-- A tile's entry is the array's entry at tile index · tile size + coordinate: node tiles at the tile's nodes, the rest whole.
theorem blk0 (c : Dev nD) (t : Fin cfg2.N) (r : Fin 5000) (k : Fin 64) :
    iblk2 V c 0 t (ix2 r k) = V c main_v61 (ix2 (nodeOf t.val (lt10 t) r) k) := by
  obtain ⟨e0, e1, -⟩ := idx2_facts t
  exact read_at (V c main_v61) (Fin.forall_fin_two.2
    ⟨by show win2_0.index t (0 : Fin 2) * 5000 + 1 * r.val = t.val * 5000 + r.val; rw [e0]; omega,
      by show win2_0.index t (1 : Fin 2) * 64 + 1 * k.val = k.val; rw [e1]; omega⟩)

theorem blk1 (c : Dev nD) (t : Fin cfg2.N) (r : Fin 5000) :
    iblk2 V c 1 t (ix2 r (0 : Fin 1)) = V c main_v75 (ix2 (nodeOf t.val (lt10 t) r) 0) := by
  obtain ⟨-, -, e0, e1, -⟩ := idx2_facts t
  exact read_at (V c main_v75) (Fin.forall_fin_two.2
    ⟨by show win2_1.index t (0 : Fin 2) * 5000 + 1 * r.val = t.val * 5000 + r.val; rw [e0]; omega,
      by show win2_1.index t (1 : Fin 2) * 1 + 1 * 0 = 0; rw [e1]⟩)

theorem blk4 (c : Dev nD) (t : Fin cfg2.N) (r : Fin 5000) (g : Fin 64) :
    xb4 V c t (ix2 r g) = e68 V c (nodeOf t.val (lt10 t) r) g := by
  obtain ⟨-, -, -, -, -, -, -, -, e0, e1, -⟩ := idx2_facts t
  exact read_at (V c main_v68) (Fin.forall_fin_two.2
    ⟨by show win2_4.index t (0 : Fin 2) * 5000 + 1 * r.val = t.val * 5000 + r.val; rw [e0]; omega,
      by show win2_4.index t (1 : Fin 2) * 64 + 1 * g.val = g.val; rw [e1]; omega⟩)

theorem blk_whole (c : Dev nD) (t : Fin cfg2.N) :
    iblk2 V c 2 t = V c main_arg7 ∧ iblk2 V c 3 t = V c main_v76 ∧ iblk2 V c 5 t = V c main_v77
    ∧ iblk2 V c 6 t = V c main_arg9 ∧ iblk2 V c 7 t = V c main_v78 := by
  obtain ⟨-, -, -, -, a0, a1, b0, b1, -, -, c0, c1, d0, d1, e0, e1⟩ := idx2_facts t
  refine ⟨funext fun j => read_at (V c main_arg7) (Fin.forall_fin_two.2 ⟨?_, ?_⟩),
    funext fun j => read_at (V c main_v76) (Fin.forall_fin_two.2 ⟨?_, ?_⟩),
    funext fun j => read_at (V c main_v77) (Fin.forall_fin_two.2 ⟨?_, ?_⟩),
    funext fun j => read_at (V c main_arg9) (Fin.forall_fin_two.2 ⟨?_, ?_⟩),
    funext fun j => read_at (V c main_v78) (Fin.forall_fin_two.2 ⟨?_, ?_⟩)⟩
  · show win2_2.index t (0 : Fin 2) * 64 + 1 * (j 0).val = (j 0).val; omega
  · show win2_2.index t (1 : Fin 2) * 64 + 1 * (j 1).val = (j 1).val; omega
  · show win2_3.index t (0 : Fin 2) * 1 + 1 * (j 0).val = (j 0).val; omega
  · show win2_3.index t (1 : Fin 2) * 64 + 1 * (j 1).val = (j 1).val; omega
  · show win2_5.index t (0 : Fin 2) * 64 + 1 * (j 0).val = (j 0).val; omega
  · show win2_5.index t (1 : Fin 2) * 1 + 1 * (j 1).val = (j 1).val; omega
  · show win2_6.index t (0 : Fin 2) * 64 + 1 * (j 0).val = (j 0).val; omega
  · show win2_6.index t (1 : Fin 2) * 1 + 1 * (j 1).val = (j 1).val; omega
  · show win2_7.index t (0 : Fin 2) * 1 + 1 * (j 0).val = (j 0).val; omega
  · show win2_7.index t (1 : Fin 2) * 1 + 1 * (j 1).val = (j 1).val; omega

abbrev actAll (c : Dev nD) (n : Fin 50000) (d : Fin 64) : EReal :=
  Cert.Spec.act64 (V c main_v61) (fun n => V c main_v75 (ix2 n 0)) (V c main_arg7) (fun d => V c main_v76 (ix2 0 d)) n d

-- The pooled share of tile s at (g, d): its nodes' membership entries times their activations.
def tileSum (c : Dev nD) (g d : Fin 64) (s : ℕ) : EReal :=
  if hs : s < 10 then ∑ r : Fin 5000, e68 V c (nodeOf s hs r) g * actAll V c (nodeOf s hs r) d else 0

theorem tile_share (c : Dev nD) (t : Fin cfg2.N) (g d : Fin 64) :
    ∑ r : Fin 5000, xb4 V c t (ix2 r g) * tileAct (iblk2 V c 0 t) (iblk2 V c 1 t) (iblk2 V c 2 t) (iblk2 V c 3 t) r d
      = tileSum V c g d t.val := by
  unfold tileSum
  rw [dif_pos (lt10 t), (blk_whole V c t).1, (blk_whole V c t).2.1]
  refine Finset.sum_congr rfl fun r _ => ?_
  rw [blk4 V c t r g]
  unfold tileAct actAll Cert.Spec.act64
  rw [blk1 V c t r]
  exact congrArg (fun s : EReal => _ * max (s + _) _) (Finset.sum_congr rfl fun k _ => by rw [blk0 V c t r k])

-- Entry (g, d) of the accumulator after point n: the shares of tiles 0 … n.
theorem accAt_apply (c : Dev nD) (g d : Fin 64) : ∀ (n : ℕ) (hn : n < cfg2.N),
    accAt2 V c n hn (ix2 g d) = ∑ s ∈ Finset.range (n + 1), tileSum V c g d s
  | 0, hn => by
    rw [accAt2, k2_pay2_apply, k2_pay1_apply, zero_add, Finset.sum_range_one]
    exact tile_share V c ⟨0, hn⟩ g d
  | n + 1, hn => by
    rw [accAt2, k2_pay2_apply, accAt_apply c g d n (Nat.lt_of_succ_lt hn), Finset.sum_range_succ _ (n + 1)]
    exact congrArg (_ + ·) (tile_share V c ⟨n + 1, hn⟩ g d)

-- Fifty thousand nodes are ten tiles of five thousand.
theorem sum_nodes (f : Fin 50000 → EReal) :
    ∑ n : Fin 50000, f n = ∑ s : Fin 10, ∑ r : Fin 5000, f (nodeOf s.val s.isLt r) := by
  refine (Equiv.sum_comp (finProdFinEquiv : Fin 10 × Fin 5000 ≃ Fin (10 * 5000)) f).symm.trans ?_
  rw [Fintype.sum_prod_type]
  refine Finset.sum_congr rfl fun s _ => Finset.sum_congr rfl fun r _ => congrArg f (Fin.ext ?_)
  show r.val + 5000 * s.val = s.val * 5000 + r.val
  omega

theorem sum_tiles (c : Dev nD) (g d : Fin 64) :
    ∑ s ∈ Finset.range 10, tileSum V c g d s = ∑ n : Fin 50000, e68 V c n g * actAll V c n d := by
  rw [← Fin.sum_univ_eq_sum_range (fun s => tileSum V c g d s) 10]
  refine (Finset.sum_congr rfl fun s _ => ?_).trans (sum_nodes (fun n => e68 V c n g * actAll V c n d)).symm
  unfold tileSum
  rw [dif_pos s.isLt]

-- The array the launch leaves: the last point divides the pooled sums over all ten tiles by the counts and applies the head.
theorem arrAt2_out (c : Dev nD) :
    ((dat2 (F := Ideal) V c).arrAt 8 cfg2.N : S64x1.Idx → EReal) = fun j => Cert.Spec.pooled (fun n d => Cert.Spec.act64 (V c main_v61) (fun n => V c main_v75 (ix2 n 0)) (V c main_arg7) (fun d => V c main_v76 (ix2 0 d)) n d) (fun n g => V c main_v68 (ix2 n g)) (fun g => V c main_v77 (ix2 g 0)) (fun d => V c main_arg9 (ix2 d 0)) (V c main_v78 (ix2 0 0)) (j 0) := by
  refine (arrAt2_last (F := Ideal) V c).trans ?_
  show k2_pay3 (F := Ideal) (accAt2 V c 9 nine_lt_N2) (iblk2 V c 5 ⟨9, nine_lt_N2⟩) (iblk2 V c 6 ⟨9, nine_lt_N2⟩) (iblk2 V c 7 ⟨9, nine_lt_N2⟩) = _
  obtain ⟨-, -, h5, h6, h7⟩ := blk_whole V c ⟨9, nine_lt_N2⟩
  rw [h5, h6, h7]
  funext j
  obtain ⟨g, z, rfl⟩ : ∃ (g : Fin 64) (z : Fin 1), j = ix2 g z := ⟨j 0, j 1, eq_ix2 j⟩
  obtain rfl : z = 0 := Subsingleton.elim _ _
  rw [k2_pay3_apply]
  refine congrArg (· + _) (Finset.sum_congr rfl fun d _ => ?_)
  rw [(accAt_apply V c g d 9 nine_lt_N2).trans (sum_tiles V c g d)]
  rfl

end Value

end Cert.KernelIdeal.Fr

end
-- ==== Proof.KI.Value.lean ====
import proofs.«408972_j53575422050753_2_alg».proof.Proof.KI.Run
import proofs.«408972_j53575422050753_2_alg».proof.Proof.KI.Layers
import proofs.«408972_j53575422050753_2_alg».proof.Proof.KHost
import proofs.«408972_j53575422050753_2_alg».proof.Proof.KHostAux
import proofs.«408972_j53575422050753_2_alg».proof.Proof.KHost1
import proofs.«408972_j53575422050753_2_alg».proof.Proof.KHost2
import proofs.«408972_j53575422050753_2_alg».proof.Proof.KI.Val2

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KHost
open Idealize.ShloMosaic.ValueIdx

variable (m : (ℓ : Loc nD τ sig) → Buf (Elt Ideal) ℓ) (ρ : Dev nD → PrngReg) (c : Dev nD)

abbrev argRefs : List (Ref sig .tc) :=
  [main_arg0, main_arg1, main_arg2, main_arg3, main_arg4, main_arg5, main_arg6, main_arg7, main_arg8, main_arg9, main_arg10]

-- No host stretch writes an argument array and no launch outputs it: before the second and the third stretch it is as launched.
theorem arg_at (r : Ref sig .tc) (hr : r ∈ argRefs) :
    W2 m ρ c (Proc.devRef .tc r) = m ((c : Thread nD τ).loc r) ∧ W4 m ρ c (Proc.devRef .tc r) = m ((c : Thread nD τ).loc r) := by
  obtain ⟨h0, h1, ha, hb⟩ := (by decide : ∀ a ∈ argRefs, a ∉ hostOps0_W ∧ a ∉ hostOps1_W ∧ a ≠ main_v34 ∧ a ≠ main_v50) r hr
  have e2 := (W2_keep m ρ c r ha).trans ((W1_of m ρ c r h0).trans rfl)
  exact ⟨e2, (W4_keep m ρ c r hb).trans ((W3_of m ρ c r h1).trans e2)⟩

theorem arg2 (r : Ref sig .tc) (hr : r ∈ argRefs) : W2 m ρ c (Proc.devRef .tc r) = m ((c : Thread nD τ).loc r) :=
  (arg_at m ρ c r hr).1
theorem arg4 (r : Ref sig .tc) (hr : r ∈ argRefs) : W4 m ρ c (Proc.devRef .tc r) = m ((c : Thread nD τ).loc r) :=
  (arg_at m ρ c r hr).2

theorem v14_at2 : W2 m ρ c (Proc.devRef .tc main_v14)
    = Cert.ReferenceIdeal.Read.val_main_v14 (F := Ideal) (m ((c : Thread nD τ).loc main_arg1)) :=
  (W2_keep m ρ c main_v14 (by decide)).trans (H0d (W0 m ρ c))
theorem v14_at4 : W4 m ρ c (Proc.devRef .tc main_v14)
    = Cert.ReferenceIdeal.Read.val_main_v14 (F := Ideal) (m ((c : Thread nD τ).loc main_arg1)) :=
  (W4_keep m ρ c main_v14 (by decide)).trans ((W3_of m ρ c main_v14 (by decide)).trans (v14_at2 m ρ c))
theorem v10_at2 : W2 m ρ c (Proc.devRef .tc main_v10)
    = Cert.ReferenceIdeal.Read.val_main_v10 (F := Ideal) (m ((c : Thread nD τ).loc main_arg0)) :=
  (W2_keep m ρ c main_v10 (by decide)).trans (H0e (W0 m ρ c))

-- The first launch's output is the reference's first layer.
theorem v34_at2 : (W2 m ρ c (Proc.devRef .tc main_v34) : S50000x64.Idx → EReal)
    = Cert.ReferenceIdeal.Read.val_main_v37 (F := Ideal) (m ((c : Thread nD τ).loc main_arg0)) (m ((c : Thread nD τ).loc main_arg1))
        (m ((c : Thread nD τ).loc main_arg3)) (m ((c : Thread nD τ).loc main_arg4)) :=
  (W2_main_v34 m ρ c).trans (layer0 (V1 m ρ) c _ _ _ _ (H0a (W0 m ρ c)) (H0b_in (W0 m ρ c)) (H0b_out (W0 m ρ c))
    (W1_of m ρ c main_arg3 (by decide)) (H0c (W0 m ρ c)))

theorem v45_at3 : (W3 m ρ c (Proc.devRef .tc main_v45) : S50000x64.Idx → EReal)
    = Cert.ReferenceIdeal.Read.val_main_v47 (F := Ideal) (m ((c : Thread nD τ).loc main_arg0)) (m ((c : Thread nD τ).loc main_arg1))
        (m ((c : Thread nD τ).loc main_arg3)) (m ((c : Thread nD τ).loc main_arg4)) := by
  have h := H1a (W2 m ρ c)
  simp (disch := decide) only [arg2 m ρ c] at h
  exact h (v34_at2 m ρ c)

theorem v48_at3 (n : Fin 50000) :
    (W3 m ρ c (Proc.devRef .tc main_v48) : S50000x2.Idx → EReal) (ix2 n (0 : Fin 2))
        = Cert.ReferenceIdeal.Read.val_main_v14 (F := Ideal) (m ((c : Thread nD τ).loc main_arg1)) (ix1 n)
    ∧ (W3 m ρ c (Proc.devRef .tc main_v48) : S50000x2.Idx → EReal) (ix2 n (1 : Fin 2))
        = Cert.ReferenceIdeal.Read.val_main_v10 (F := Ideal) (m ((c : Thread nD τ).loc main_arg0)) (ix1 n) := by
  have h := H1b (W2 m ρ c)
  simp (disch := decide) only [arg2 m ρ c] at h
  exact h (v14_at2 m ρ c) (v10_at2 m ρ c) n

theorem v49_at3 (d : Fin 64) :
    (W3 m ρ c (Proc.devRef .tc main_v49) : S1x64.Idx → EReal) (ix2 (0 : Fin 1) d)
      = (m ((c : Thread nD τ).loc main_arg6) : S64.Idx → EReal) (ix1 d) :=
  (H1c (W2 m ρ c) d).trans (congrFun (arg2 m ρ c main_arg6 (by decide)) (ix1 d))

theorem arg5_at3 : (W3 m ρ c (Proc.devRef .tc main_arg5) : S64x64.Idx → EReal) = m ((c : Thread nD τ).loc main_arg5) :=
  (W3_of m ρ c main_arg5 (by decide)).trans (arg2 m ρ c main_arg5 (by decide))

-- The second launch's output is the reference's second layer.
theorem v50_at4 : (W4 m ρ c (Proc.devRef .tc main_v50) : S50000x64.Idx → EReal)
    = Cert.ReferenceIdeal.Read.val_main_v58 (F := Ideal) (m ((c : Thread nD τ).loc main_arg0)) (m ((c : Thread nD τ).loc main_arg1))
        (m ((c : Thread nD τ).loc main_arg3)) (m ((c : Thread nD τ).loc main_arg4))
        (m ((c : Thread nD τ).loc main_arg5)) (m ((c : Thread nD τ).loc main_arg6)) :=
  (W4_main_v50 m ρ c).trans (layer1 (V3 m ρ) c _ _ _ _ _ _ (v45_at3 m ρ c) (fun n => (v48_at3 m ρ c n).1)
    (fun n => (v48_at3 m ρ c n).2) (arg5_at3 m ρ c) (v49_at3 m ρ c))

theorem v61_at5 : (W5 m ρ c (Proc.devRef .tc main_v61) : S50000x64.Idx → EReal)
    = Cert.ReferenceIdeal.Read.val_main_v68 (F := Ideal) (m ((c : Thread nD τ).loc main_arg0)) (m ((c : Thread nD τ).loc main_arg1))
        (m ((c : Thread nD τ).loc main_arg3)) (m ((c : Thread nD τ).loc main_arg4))
        (m ((c : Thread nD τ).loc main_arg5)) (m ((c : Thread nD τ).loc main_arg6)) := by
  have h := H2a (W4 m ρ c)
  simp (disch := decide) only [arg4 m ρ c] at h
  exact h (v50_at4 m ρ c)

theorem v75_at5 (n : Fin 50000) :
    (W5 m ρ c (Proc.devRef .tc main_v75) : S50000x1.Idx → EReal) (ix2 n (0 : Fin 1))
      = Cert.ReferenceIdeal.Read.val_main_v14 (F := Ideal) (m ((c : Thread nD τ).loc main_arg1)) (ix1 n) := by
  have h := H2c_nd (W4 m ρ c)
  simp (disch := decide) only [arg4 m ρ c] at h
  exact h (v14_at4 m ρ c) n

theorem v76_at5 (d : Fin 64) :
    (W5 m ρ c (Proc.devRef .tc main_v76) : S1x64.Idx → EReal) (ix2 (0 : Fin 1) d)
      = (m ((c : Thread nD τ).loc main_arg8) : S64.Idx → EReal) (ix1 d) :=
  (H2c_bias (W4 m ρ c) d).trans (congrFun (arg4 m ρ c main_arg8 (by decide)) (ix1 d))

theorem v68_at5 (n : Fin 50000) (g : Fin 64) :
    (W5 m ρ c (Proc.devRef .tc main_v68) : S50000x64.Idx → EReal) (ix2 n g)
      = (if ((m ((c : Thread nD τ).loc main_arg2) : S50000.Idx → BitVec 32) (ix1 n)).toInt = (g.val : Int) then 1 else 0 : EReal) := by
  have h := H2b (W4 m ρ c) n g
  simp (disch := decide) only [arg4 m ρ c] at h
  exact h

theorem v77_at5 (g : Fin 64) :
    (W5 m ρ c (Proc.devRef .tc main_v77) : S64x1.Idx → EReal) (ix2 g (0 : Fin 1))
      = Cert.ReferenceIdeal.Read.val_main_v85 (F := Ideal) (m ((c : Thread nD τ).loc main_arg2)) (ix1 g) := by
  have h := H2c_cnt (W4 m ρ c) g
  simp (disch := decide) only [arg4 m ρ c] at h
  exact h

theorem v78_at5 :
    (W5 m ρ c (Proc.devRef .tc main_v78) : S1x1.Idx → EReal) (ix2 (0 : Fin 1) (0 : Fin 1))
      = (m ((c : Thread nD τ).loc main_arg10) : S1.Idx → EReal) (ix1 (0 : Fin 1)) :=
  (H2c_br (W4 m ρ c)).trans (congrFun (arg4 m ρ c main_arg10 (by decide)) (ix1 (0 : Fin 1)))

theorem arg7_at5 : (W5 m ρ c (Proc.devRef .tc main_arg7) : S64x64.Idx → EReal) = m ((c : Thread nD τ).loc main_arg7) :=
  (W5_of m ρ c main_arg7 (by decide)).trans (arg4 m ρ c main_arg7 (by decide))
theorem arg9_at5 : (W5 m ρ c (Proc.devRef .tc main_arg9) : S64x1.Idx → EReal) = m ((c : Thread nD τ).loc main_arg9) :=
  (W5_of m ρ c main_arg9 (by decide)).trans (arg4 m ρ c main_arg9 (by decide))

-- The third launch's output array, as the run leaves it, is the reference's result on the launch contents of the arguments.
theorem kernel_value : (W6 m ρ c (Proc.devRef .tc main_v79) : S64x1.Idx → EReal)
    = Cert.ReferenceIdeal.Read.val_main_v92 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) :=
  (W6_main_v79 m ρ c).trans (layer2 (V5 m ρ) c _ _ _ _ _ _ _ _ _ _ _ _ (arrAt2_out (V5 m ρ) c)
    (v61_at5 m ρ c) (v75_at5 m ρ c) (arg7_at5 m ρ c) (v76_at5 m ρ c) (v68_at5 m ρ c) (v77_at5 m ρ c) (arg9_at5 m ρ c) (v78_at5 m ρ c))

end Cert.KernelIdeal.Fr

end
-- ==== Proof.lean ====
import proofs.«408972_j53575422050753_2_alg».proof.Defs
import proofs.«408972_j53575422050753_2_alg».proof.Proof.Gen.Kernel
import proofs.«408972_j53575422050753_2_alg».proof.Proof.Gen.KernelIdeal
import proofs.«408972_j53575422050753_2_alg».proof.Proof.Gen.ReferenceIdeal
import proofs.«408972_j53575422050753_2_alg».proof.Proof.Gen.Pre_finite_inputs
import proofs.«408972_j53575422050753_2_alg».proof.Proof.Gen.ReferenceIdeal.Run
import proofs.«408972_j53575422050753_2_alg».proof.Proof.Gen.ReferenceIdeal.Read
import proofs.«408972_j53575422050753_2_alg».proof.Proof.KB.Frame
import proofs.«408972_j53575422050753_2_alg».proof.Proof.KI.Frame
import proofs.«408972_j53575422050753_2_alg».proof.Proof.KI.Value
import Idealize.ShloMosaic.Adequacy
import Idealize.ShloMosaic.Init

/-! A three-layer graph convolution with mean pooling and a linear head. Both programs build the degrees, the norms and
    each layer's aggregated messages alike; a dense launch computes tile by tile what the reference's matrix product, bias,
    clip and scaling compute row by row; the pooling launch sums each graph's rows through a membership table, ten row tiles
    one after another, where the reference scatters rows by graph index. A sum over the extended reals does not depend on
    its order or grouping, so no law used needs the inputs finite. -/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    fun m ρ _ => (θ_run Cert.ReferenceIdeal.defs _ _).mono (fun _ h c => (h c).2) (Cert.ReferenceIdeal.Value.run (F := Ideal) m ρ),
    trivial,
    fun m ρ m' ρ' _ hagree =>
      ⟨fun c => Cert.KernelIdeal.Fr.W6 m ρ c (Proc.devRef .tc Cert.KernelIdeal.main_v79),
        Cert.KernelIdeal.Fr.run_result m ρ,
        (θ_run Cert.ReferenceIdeal.defs _ _).mono (fun _ h c =>
          ⟨by
            rw [(h c).1, Cert.ReferenceIdeal.Read.val_main_v92_eq, (hagree c).1, (hagree c).2.1, (hagree c).2.2.1,
              (hagree c).2.2.2.1, (hagree c).2.2.2.2.1, (hagree c).2.2.2.2.2.1, (hagree c).2.2.2.2.2.2.1,
              (hagree c).2.2.2.2.2.2.2.1, (hagree c).2.2.2.2.2.2.2.2.1, (hagree c).2.2.2.2.2.2.2.2.2.1,
              (hagree c).2.2.2.2.2.2.2.2.2.2]
            exact (Cert.KernelIdeal.Fr.kernel_value m ρ c).symm,
           (h c).2⟩)
          (Cert.ReferenceIdeal.Value.run (F := Ideal) m' ρ')⟩⟩

end Cert.Proof

end
